-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S2048x2048 : Shape := ⟨2, ![2048, 2048]⟩
abbrev S2048x1024 : Shape := ⟨2, ![2048, 1024]⟩
abbrev S1024 : Shape := ⟨1, ![1024]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048x1024 : S_.BroadcastsInDim S2048x1024 (![] : Fin 0 → Fin S2048x1024.rank)
  reducesTo_S2048x1024_S_d0_1 : S2048x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S4096x2048 .f32) (main_arg1 : FVec F S2048x2048 .f32) (main_arg2 : FVec F S2048x1024 .f32) (main_arg3 : FVec F S1024 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048x1024 .f32 := Host.absf main_arg2
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  let main_c_3 : IVec S_ 1 := constantI S_ 1 1#1
  let main_v12 : IVec S_ 1 := (fun x v => Host.reduce IntOp.andi x v reducesTo_S2048x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S4096x2048 : Shape := ⟨2, ![4096, 2048]⟩
abbrev S2048x2048 : Shape := ⟨2, ![2048, 2048]⟩
abbrev S2048x1024 : Shape := ⟨2, ![2048, 1024]⟩
abbrev S1024 : Shape := ⟨1, ![1024]⟩
abbrev S1x1024 : Shape := ⟨2, ![1, 1024]⟩
abbrev S4096x1024 : Shape := ⟨2, ![4096, 1024]⟩
abbrev S4096x1 : Shape := ⟨2, ![4096, 1]⟩
abbrev S1024x512 : Shape := ⟨2, ![1024, 512]⟩
abbrev S512x1024 : Shape := ⟨2, ![512, 1024]⟩
abbrev S1024x1024 : Shape := ⟨2, ![1024, 1024]⟩
abbrev S1024x1 : Shape := ⟨2, ![1024, 1]⟩
abbrev S2048x1 : Shape := ⟨2, ![2048, 1]⟩
abbrev S1x2048 : Shape := ⟨2, ![1, 2048]⟩
abbrev S4096 : Shape := ⟨1, ![4096]⟩

abbrev nBuf : Space → Nat
  | .hbm => 12
  | .vmem => 31
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S2048x1024, .f32⟩
  | .hbm, ⟨3, _⟩ => ⟨S1024, .f32⟩
  | .hbm, ⟨4, _⟩ => ⟨S1x1024, .f32⟩
  | .hbm, ⟨5, _⟩ => ⟨S4096x1024, .bf16⟩
  | .hbm, ⟨6, _⟩ => ⟨S4096x1, .f32⟩
  | .hbm, ⟨7, _⟩ => ⟨S2048x1024, .bf16⟩
  | .hbm, ⟨8, _⟩ => ⟨S2048x1, .f32⟩
  | .hbm, ⟨9, _⟩ => ⟨S1x2048, .f32⟩
  | .hbm, ⟨10, _⟩ => ⟨S4096x1, .f32⟩
  | .hbm, ⟨11, _⟩ => ⟨S4096, .f32⟩
  | .local _ .vmem, ⟨0, _⟩ => ⟨S1024x512, .f32⟩
  | .local _ .vmem, ⟨1, _⟩ => ⟨S1024x512, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1024x1024, .bf16⟩
  | .local _ .vmem, ⟨6, _⟩ => ⟨S1024x1024, .bf16⟩
  | .local _ .vmem, ⟨7, _⟩ => ⟨S1024x1, .f32⟩
  | .local _ .vmem, ⟨8, _⟩ => ⟨S1024x1, .f32⟩
  | .local _ .vmem, ⟨9, _⟩ => ⟨S1024x1024, .f32⟩
  | .local _ .vmem, ⟨10, _⟩ => ⟨S1024x512, .f32⟩
  | .local _ .vmem, ⟨11, _⟩ => ⟨S1024x512, .f32⟩
  | .local _ .vmem, ⟨12, _⟩ => ⟨S512x1024, .f32⟩
  | .local _ .vmem, ⟨13, _⟩ => ⟨S512x1024, .f32⟩
  | .local _ .vmem, ⟨14, _⟩ => ⟨S1x1024, .f32⟩
  | .local _ .vmem, ⟨15, _⟩ => ⟨S1024x1024, .bf16⟩
  | .local _ .vmem, ⟨16, _⟩ => ⟨S1024x1024, .bf16⟩
  | .local _ .vmem, ⟨17, _⟩ => ⟨S1024x1, .f32⟩
  | .local _ .vmem, ⟨18, _⟩ => ⟨S1024x1, .f32⟩
  | .local _ .vmem, ⟨19, _⟩ => ⟨S1024x1024, .f32⟩
  | .local _ .vmem, ⟨20, _⟩ => ⟨S1024x1024, .bf16⟩
  | .local _ .vmem, ⟨21, _⟩ => ⟨S1024x1024, .bf16⟩
  | .local _ .vmem, ⟨22, _⟩ => ⟨S1024x1, .f32⟩
  | .local _ .vmem, ⟨23, _⟩ => ⟨S1024x1, .f32⟩
  | .local _ .vmem, ⟨24, _⟩ => ⟨S1024x1024, .bf16⟩
  | .local _ .vmem, ⟨25, _⟩ => ⟨S1024x1024, .bf16⟩
  | .local _ .vmem, ⟨26, _⟩ => ⟨S1x1024, .f32⟩
  | .local _ .vmem, ⟨27, _⟩ => ⟨S1x1024, .f32⟩
  | .local _ .vmem, ⟨28, _⟩ => ⟨S1024x1, .f32⟩
  | .local _ .vmem, ⟨29, _⟩ => ⟨S1024x1, .f32⟩
  | .local _ .vmem, ⟨30, _⟩ => ⟨S1024x1, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v2_0 : Ref sig .tc := ⟨.hbm, 7, rfl⟩
abbrev main_v2_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg4_1 : Ref sig .tc := ⟨.vmem, 18, rfl⟩
abbrev cc1_scratch0 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg3_1 : Ref sig .tc := ⟨.vmem, 27, rfl⟩
abbrev cc2_stg4_0 : Ref sig .tc := ⟨.vmem, 28, rfl⟩
abbrev cc2_stg4_1 : Ref sig .tc := ⟨.vmem, 29, rfl⟩
abbrev cc2_scratch0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem3_1 : DmaSem sig := 15
abbrev cc1_sem4_0 : DmaSem sig := 16
abbrev cc1_sem4_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem3_1 : DmaSem sig := 25
abbrev cc2_sem4_0 : DmaSem sig := 26
abbrev cc2_sem4_1 : DmaSem sig := 27

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![2, 4], ![false, false]⟩

def k1_cond2 (i : grid1.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1024x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1024x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev grid2 : Pipeline.Grid := ⟨2, ![4, 2], ![false, false]⟩

def k2_cond2 (i : grid2.Coords) : BitVec 1 :=
  let arg1 : BitVec 32 := BitVec.ofNat 32 (i 1).val
  let c1_i32 : BitVec 32 := 1#32
  let v25 : BitVec 1 := Scalar.cmpi .eq arg1 c1_i32
  let v26 : BitVec 32 := Scalar.extui v25
  let c0_i32_14 : BitVec 32 := 0#32
  let v27 : BitVec 1 := Scalar.cmpi .ne v26 c0_i32_14
  v27

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1024x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1024x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S1x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true]

abbrev stage2_4 : Fin 2 → Memref sig .tc .vmem S1024x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

class Facts₀ : Prop where
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  packedbf16_S1024x1024_S1024x1024_0_0 : (Rect.unit (s := S1024x1024) ![0, 0] S1024x1024.size inb_S1024x1024_S1024x1024_0_0).PackedRows (EltTy.packing .bf16)
  reduces_S1024x1024_S1024 : S1024x1024.Reduces [1] S1024
  shapeCasts_S1024_S1024x1 : S1024.ShapeCasts S1024x1
  inb_S1024x1_S1024x1_0_0 : ∀ a, (![0, 0] : Fin 2 → Nat) a + S1024x1.size a ≤ S1024x1.size a
  h_S1024x1 : 0 < S1024x1.numel
  shapeCasts_S2048x1_S1x2048 : S2048x1.ShapeCasts S1x2048
  shapeCasts_S1024x1_S1024x1 : S1024x1.ShapeCasts S1024x1
  broadcasts_S1024x1_S1024x1024 : S1024x1.Broadcasts S1024x1024
  shapeCasts_S4096x1_S4096 : S4096x1.ShapeCasts S4096
  dot_S1024x512_S512x1024_S1024x1024_1_0_0_1_n_n_wf : DotDims.WF S1024x512 S512x1024 S1024x1024 [1] [0] [0] [1] [] []
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S4096x2048.size a
  hwx0_0 : ∀ i : grid0.Coords, EltTy.bits .f32 = 32 ∨ (Rect.block (s := S4096x2048) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S2048x1024.size a
  hwx0_1 : ∀ i : grid0.Coords, EltTy.bits .f32 = 32 ∨ (Rect.block (s := S2048x1024) S512x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x1024.size a
  hwx0_3 : ∀ i : grid0.Coords, EltTy.bits .bf16 = 32 ∨ (Rect.block (s := S4096x1024) S1024x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S4096x1.size a
  hwx0_4 : ∀ i : grid0.Coords, EltTy.bits .f32 = 32 ∨ (Rect.block (s := S4096x1) S1024x1.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S2048x2048.size a
  hwx1_0 : ∀ i : grid1.Coords, EltTy.bits .f32 = 32 ∨ (Rect.block (s := S2048x2048) S1024x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x1024.size a ≤ S2048x1024.size a
  hwx1_1 : ∀ i : grid1.Coords, EltTy.bits .f32 = 32 ∨ (Rect.block (s := S2048x1024) S512x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S2048x1024.size a
  hwx1_3 : ∀ i : grid1.Coords, EltTy.bits .bf16 = 32 ∨ (Rect.block (s := S2048x1024) S1024x1024.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x1.size a ≤ S2048x1.size a
  hwx1_4 : ∀ i : grid1.Coords, EltTy.bits .f32 = 32 ∨ (Rect.block (s := S2048x1) S1024x1.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S4096x1024.size a
  hwx2_0 : ∀ i : grid2.Coords, EltTy.bits .bf16 = 32 ∨ (Rect.block (s := S4096x1024) S1024x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x1.size a ≤ S4096x1.size a
  hwx2_1 : ∀ i : grid2.Coords, EltTy.bits .f32 = 32 ∨ (Rect.block (s := S4096x1) S1024x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1024.size a ≤ S2048x1024.size a
  hwx2_2 : ∀ i : grid2.Coords, EltTy.bits .bf16 = 32 ∨ (Rect.block (s := S2048x1024) S1024x1024.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x1024.size a ≤ S1x2048.size a
  hwx2_3 : ∀ i : grid2.Coords, EltTy.bits .f32 = 32 ∨ (Rect.block (s := S1x2048) S1x1024.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1024x1.size a ≤ S4096x1.size a
  hwx2_4 : ∀ i : grid2.Coords, EltTy.bits .f32 = 32 ∨ (Rect.block (s := S4096x1) S1024x1.size (cc2_transform_4 i) (hinb2_4 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1_0) S1024x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_1) S1024x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun i => !(k0_cond2 i == 1#1) | ⟨_ + 5, h⟩ => absurd h (Nat.not_lt.2 (Nat.le_add_left _ _))

abbrev win1_0 : Pipeline.Window sig grid1 :=
  Pipeline.Window.ofSpec (Memref.whole main_arg1) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2_0) S1024x1024.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v2_1) S1024x1.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun i => !(k1_cond2 i == 1#1) | 4 => fun i => !(k1_cond2 i == 1#1) | ⟨_ + 5, h⟩ => absurd h (Nat.not_lt.2 (Nat.le_add_left _ _))

abbrev win2_0 : Pipeline.Window sig grid2 :=
  Pipeline.Window.ofSpec (Memref.whole main_v1_0) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1_1) S1024x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v2_0) S1024x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v3) S1x1024.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v4) S1024x1.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun _ => false | 4 => fun i => !(k2_cond2 i == 1#1) | ⟨_ + 5, h⟩ => absurd h (Nat.not_lt.2 (Nat.le_add_left _ _))

class Facts : Prop extends Facts₀ where

variable [Facts]
-- ==== ReferenceIdeal.lean ====
abbrev S4096x2048 : Shape := ⟨2, ![4096, 2048]⟩
abbrev S2048x2048 : Shape := ⟨2, ![2048, 2048]⟩
abbrev S2048x1024 : Shape := ⟨2, ![2048, 1024]⟩
abbrev S1024 : Shape := ⟨1, ![1024]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S2048 : Shape := ⟨1, ![2048]⟩
abbrev S1x2048 : Shape := ⟨2, ![1, 2048]⟩

abbrev nBuf : Space → Nat
  | .hbm => 33
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S2048x1024, .f32⟩
  | .hbm, ⟨3, _⟩ => ⟨S1024, .f32⟩
  | .hbm, ⟨4, _⟩ => ⟨S4096x1024, .f32⟩
  | .hbm, ⟨5, _⟩ => ⟨S1x1024, .f32⟩
  | .hbm, ⟨6, _⟩ => ⟨S4096x1024, .f32⟩
  | .hbm, ⟨7, _⟩ => ⟨S4096x1024, .f32⟩
  | .hbm, ⟨8, _⟩ => ⟨S2048x1024, .f32⟩
  | .hbm, ⟨9, _⟩ => ⟨S1x1024, .f32⟩
  | .hbm, ⟨10, _⟩ => ⟨S2048x1024, .f32⟩
  | .hbm, ⟨11, _⟩ => ⟨S2048x1024, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S2048x1024, .f32⟩
  | .hbm, ⟨17, _⟩ => ⟨S_, .f32⟩
  | .hbm, ⟨18, _⟩ => ⟨S2048, .f32⟩
  | .hbm, ⟨19, _⟩ => ⟨S4096x2048, .f32⟩
  | .hbm, ⟨20, _⟩ => ⟨S1x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S_, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S_, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_1 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  bcast_S1x1024_S2048x1024_0_1 : S1x1024.BroadcastsInDim S2048x1024 (![0, 1] : Fin 2 → Fin S2048x1024.rank)
  reducesTo_S4096x1024_S4096_d1 : S4096x1024.ReducesTo [1] S4096
  h_S_ : 0 < S_.numel
  bcast_S4096_S4096x1_0 : S4096.BroadcastsInDim S4096x1 (![0] : Fin 1 → Fin S4096x1.rank)
  reducesTo_S2048x1024_S2048_d1 : S2048x1024.ReducesTo [1] S2048
  bcast_S2048_S1x2048_1 : S2048.BroadcastsInDim S1x2048 (![1] : Fin 1 → Fin S1x2048.rank)
  bcast_S4096x1_S4096x2048_0_1 : S4096x1.BroadcastsInDim S4096x2048 (![0, 1] : Fin 2 → Fin S4096x2048.rank)
  bcast_S1x2048_S4096x2048_0_1 : S1x2048.BroadcastsInDim S4096x2048 (![0, 1] : Fin 2 → Fin S4096x2048.rank)
  bcast_S_S4096x2048 : S_.BroadcastsInDim S4096x2048 (![] : Fin 0 → Fin S4096x2048.rank)
  reducesTo_S4096x2048_S4096_d1 : S4096x2048.ReducesTo [1] S4096
  bcast_S_S4096 : S_.BroadcastsInDim S4096 (![] : Fin 0 → Fin S4096.rank)
  dot_S4096x2048_S2048x1024_S4096x1024_1_0_0_1_n_n_wf : DotDims.WF S4096x2048 S2048x1024 S4096x1024 [1] [0] [0] [1] [] []
  dot_S2048x2048_S2048x1024_S2048x1024_1_0_0_1_n_n_wf : DotDims.WF S2048x2048 S2048x1024 S2048x1024 [1] [0] [0] [1] [] []
  dot_S4096x1024_S2048x1024_S4096x2048_1_1_0_0_n_n_wf : DotDims.WF S4096x1024 S2048x1024 S4096x2048 [1] [1] [0] [0] [] []

variable [Facts₀]

def dot_S4096x2048_S2048x1024_S4096x1024_1_0_0_1_n_n : DotDims S4096x2048 S2048x1024 S4096x1024 where
  lhsContracting := [1]
  rhsContracting := [0]
  lhsNonContracting := [0]
  rhsNonContracting := [1]
  lhsBatch := []
  rhsBatch := []
  wf := dot_S4096x2048_S2048x1024_S4096x1024_1_0_0_1_n_n_wf
def dot_S2048x2048_S2048x1024_S2048x1024_1_0_0_1_n_n : DotDims S2048x2048 S2048x1024 S2048x1024 where
  lhsContracting := [1]
  rhsContracting := [0]
  lhsNonContracting := [0]
  rhsNonContracting := [1]
  lhsBatch := []
  rhsBatch := []
  wf := dot_S2048x2048_S2048x1024_S2048x1024_1_0_0_1_n_n_wf
def dot_S4096x1024_S2048x1024_S4096x2048_1_1_0_0_n_n : DotDims S4096x1024 S2048x1024 S4096x2048 where
  lhsContracting := [1]
  rhsContracting := [1]
  lhsNonContracting := [0]
  rhsNonContracting := [0]
  lhsBatch := []
  rhsBatch := []
  wf := dot_S4096x1024_S2048x1024_S4096x2048_1_1_0_0_n_n_wf

class Facts : Prop extends Facts₀ where

variable [Facts]
-- ==== Proof.K.R0Base.lean ====
import proofs.«148324_j39651138077344_1_alg».proof.Proof.Gen.Kernel.Launch
import proofs.«148324_j39651138077344_1_alg».proof.Proof.Gen.Kernel.Skeleton
import proofs.«148324_j39651138077344_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
end

abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_4 : ∀ t : Fin cfg0.N, cond0_1 (grid0.coords t) → cfg0.idle 4 (grid0.coords t) = false := by decide +kernel

abbrev VO0_3 : View sig .tc .vmem S1024x1024 .bf16 := (Memref.whole cc0_stg3_0 : Memref sig .tc .vmem S1024x1024 .bf16).view
abbrev VO0_4 : View sig .tc .vmem S1024x1 .f32 := (Memref.whole cc0_stg4_0 : Memref sig .tc .vmem S1024x1 .f32).view
abbrev ms0_0 (t : Fin cfg0.N) : Memref sig .tc .vmem S1024x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1 .f32 := win0_4.stage (cfg0.slots t 4)
abbrev hs0_4 (t : Fin cfg0.N) : (ms0_4 t).IsWhole := hstage0_4 ((cfg0.slots t 4).cast nbuf0_4)
abbrev scM0_0 : Memref sig .tc .vmem S1024x1024 .f32 := Memref.whole cc0_scratch0
abbrev VS0_0 : View sig .tc .vmem S1024x1024 .f32 := scM0_0.view

abbrev others0 (c : Dev nD) : sProp 𝕄 := Pipeline.scopedRestBut spec0 c [cc0_scratch0]

/-- The region's own scoped buffers with the accumulator split off, owned at some contents. -/
theorem PhiA0_eq (c : Dev nD) :
    (Pipeline.ΦA spec0 c : sProp 𝕄)
      = iprop(iprop((∃ d, owns (c : Thread nD τ) scM0_0 fullShare d) ∗ others0 c) ∗ (∃ r, prngReg c r)) := by
  unfold Pipeline.ΦA
  rw [Pipeline.scopedRest_split_of_list spec0 c [cc0_scratch0] (by decide) (by decide)]
  simp only [bigSepL_singleton, scM0_0, owns_whole]; try rfl

set_option genInjectivity false in
set_option genSizeOfSpec false in
/-- What the body runs on at a grid point: its six whole buffers and the three blocks it loads. -/
structure Pt0 (F : FTy → Type) where
  c : Dev nD
  i : grid0.Coords
  a2 : Memref sig .tc .vmem S1024x512 .f32
  h2 : a2.IsWhole
  a3 : Memref sig .tc .vmem S512x1024 .f32
  h3 : a3.IsWhole
  a4 : Memref sig .tc .vmem S1x1024 .f32
  h4 : a4.IsWhole
  a5 : Memref sig .tc .vmem S1024x1024 .bf16
  h5 : a5.IsWhole
  a6 : Memref sig .tc .vmem S1024x1 .f32
  h6 : a6.IsWhole
  a7 : Memref sig .tc .vmem S1024x1024 .f32
  h7 : a7.IsWhole
  x0 : Vec F S1024x512 .f32
  x1 : Vec F S512x1024 .f32
  x2 : Vec F S1x1024 .f32

end Cert.Kernel.Fr

end
-- ==== Proof.K.R0RunA.lean ====
import proofs.«148324_j39651138077344_1_alg».proof.Proof.K.R0Base

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_A (c : Dev nD) (i : grid0.Coords) (arg2 : Memref sig .tc .vmem S1024x512 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1024x1 .f32) (harg6 : arg6.IsWhole) (arg7 : Memref sig .tc .vmem S1024x1024 .f32) (harg7 : arg7.IsWhole) (hc0 : cond0_0 i) (hc1 : ¬cond0_1 i)
    (x0 : Vec F S1024x512 .f32) (x1 : Vec F S512x1024 .f32) (x2 : Vec F S1x1024 .f32) :
    Σ' (L3 : List (View.Piece (Elt F) S1024x1024 .bf16)) (L4 : List (View.Piece (Elt F) S1024x1 .f32)), { LS0 : List (View.Piece (Elt F) S1024x1024 .f32) //
      ∀ (xi3 : Vec F S1024x1024 .bf16) (xi4 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__linear_rownorm_kernel i arg2 harg2 arg3 harg3 arg4 harg4 arg5 harg5 arg6 harg6 arg7 harg7) K } := by
  refine ⟨[], [], ?_, fun xi3 xi4 E K => ?run⟩
  case run =>
    simp only [cc0__linear_rownorm_kernel_eq_skeleton]; unfold cc0__linear_rownorm_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Fr

end
-- ==== Proof.K.R0RunB.lean ====
import proofs.«148324_j39651138077344_1_alg».proof.Proof.K.R0Base

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_B (c : Dev nD) (i : grid0.Coords) (arg2 : Memref sig .tc .vmem S1024x512 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1024x1 .f32) (harg6 : arg6.IsWhole) (arg7 : Memref sig .tc .vmem S1024x1024 .f32) (harg7 : arg7.IsWhole) (hc0 : ¬cond0_0 i) (hc1 : ¬cond0_1 i)
    (x0 : Vec F S1024x512 .f32) (x1 : Vec F S512x1024 .f32) (x2 : Vec F S1x1024 .f32) (xs0 : Vec F S1024x1024 .f32) :
    Σ' (L3 : List (View.Piece (Elt F) S1024x1024 .bf16)) (L4 : List (View.Piece (Elt F) S1024x1 .f32)), { LS0 : List (View.Piece (Elt F) S1024x1024 .f32) //
      ∀ (xi3 : Vec F S1024x1024 .bf16) (xi4 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__linear_rownorm_kernel i arg2 harg2 arg3 harg3 arg4 harg4 arg5 harg5 arg6 harg6 arg7 harg7) K } := by
  refine ⟨[], [], ?_, fun xi3 xi4 E K => ?run⟩
  case run =>
    simp only [cc0__linear_rownorm_kernel_eq_skeleton]; unfold cc0__linear_rownorm_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Fr

end
-- ==== Proof.K.R0RunC.lean ====
import proofs.«148324_j39651138077344_1_alg».proof.Proof.K.R0Base

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_C (c : Dev nD) (i : grid0.Coords) (arg2 : Memref sig .tc .vmem S1024x512 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1024x1 .f32) (harg6 : arg6.IsWhole) (arg7 : Memref sig .tc .vmem S1024x1024 .f32) (harg7 : arg7.IsWhole) (hc0 : ¬cond0_0 i) (hc1 : cond0_1 i)
    (x0 : Vec F S1024x512 .f32) (x1 : Vec F S512x1024 .f32) (x2 : Vec F S1x1024 .f32) (xs0 : Vec F S1024x1024 .f32) :
    Σ' (L3 : List (View.Piece (Elt F) S1024x1024 .bf16)) (L4 : List (View.Piece (Elt F) S1024x1 .f32)), { LS0 : List (View.Piece (Elt F) S1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0__linear_rownorm_kernel i arg2 harg2 arg3 harg3 arg4 harg4 arg5 harg5 arg6 harg6 arg7 harg7) K } := by
  refine ⟨?_, ?_, ?_, fun E K => ?run⟩
  case run =>
    simp only [cc0__linear_rownorm_kernel_eq_skeleton]; unfold cc0__linear_rownorm_kernel_skel
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    iexists _; iexact HS0

end Cert.Kernel.Fr

end
-- ==== Proof.K.R0Dat.lean ====
import proofs.«148324_j39651138077344_1_alg».proof.Proof.K.R0RunA
import proofs.«148324_j39651138077344_1_alg».proof.Proof.K.R0RunB
import proofs.«148324_j39651138077344_1_alg».proof.Proof.K.R0RunC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The two result buffers and the accumulator, read back after a list of stores into each. -/
def rd0 (L3 : List (View.Piece (Elt F) S1024x1024 .bf16)) (L4 : List (View.Piece (Elt F) S1024x1 .f32)) (LS : List (View.Piece (Elt F) S1024x1024 .f32)) :
    Vec F S1024x1024 .bf16 × Vec F S1024x1 .f32 × Vec F S1024x1024 .f32 :=
  (VO0_3.read (Elt F) (VO0_3.writes (Elt F) VO0_3.junk L3), VO0_4.read (Elt F) (VO0_4.writes (Elt F) VO0_4.junk L4), VS0_0.read (Elt F) (VS0_0.writes (Elt F) VS0_0.junk LS))

section
variable (P : Pt0 F) (xs : Vec F S1024x1024 .f32)

def Pt0.runA (hc0 : cond0_0 P.i) (hc1 : ¬cond0_1 P.i) :=
  kernelRun0_A P.c P.i P.a2 P.h2 P.a3 P.h3 P.a4 P.h4 P.a5 P.h5 P.a6 P.h6 P.a7 P.h7 hc0 hc1 P.x0 P.x1 P.x2
def Pt0.runB (hc0 : ¬cond0_0 P.i) (hc1 : ¬cond0_1 P.i) :=
  kernelRun0_B P.c P.i P.a2 P.h2 P.a3 P.h3 P.a4 P.h4 P.a5 P.h5 P.a6 P.h6 P.a7 P.h7 hc0 hc1 P.x0 P.x1 P.x2 xs
def Pt0.runC (hc0 : ¬cond0_0 P.i) (hc1 : cond0_1 P.i) :=
  kernelRun0_C P.c P.i P.a2 P.h2 P.a3 P.h3 P.a4 P.h4 P.a5 P.h5 P.a6 P.h6 P.a7 P.h7 hc0 hc1 P.x0 P.x1 P.x2 xs

def Pt0.outA (hc0 : cond0_0 P.i) (hc1 : ¬cond0_1 P.i) := rd0 (P.runA hc0 hc1).1 (P.runA hc0 hc1).2.1 (P.runA hc0 hc1).2.2.1
def Pt0.outB (hc0 : ¬cond0_0 P.i) (hc1 : ¬cond0_1 P.i) := rd0 (P.runB xs hc0 hc1).1 (P.runB xs hc0 hc1).2.1 (P.runB xs hc0 hc1).2.2.1
def Pt0.outC (hc0 : ¬cond0_0 P.i) (hc1 : cond0_1 P.i) := rd0 (P.runC xs hc0 hc1).1 (P.runC xs hc0 hc1).2.1 (P.runC xs hc0 hc1).2.2.1

/-- Every case stores the accumulator whole, and the last case both result blocks: the stored rectangles tile the buffer. -/
theorem Pt0.scoverA (hc0 : cond0_0 P.i) (hc1 : ¬cond0_1 P.i) (y : S1024x1024.Idx) : ∃ pc ∈ (P.runA hc0 hc1).2.2.1, y ∈ pc.1.set :=
  View.cover_of_tiledL (P.runA hc0 hc1).2.2.1 S1024x1024.size (by sl_kernel_rfl) y
theorem Pt0.scoverB (hc0 : ¬cond0_0 P.i) (hc1 : ¬cond0_1 P.i) (y : S1024x1024.Idx) : ∃ pc ∈ (P.runB xs hc0 hc1).2.2.1, y ∈ pc.1.set :=
  View.cover_of_tiledL (P.runB xs hc0 hc1).2.2.1 S1024x1024.size (by sl_kernel_rfl) y
theorem Pt0.scoverC (hc0 : ¬cond0_0 P.i) (hc1 : cond0_1 P.i) (y : S1024x1024.Idx) : ∃ pc ∈ (P.runC xs hc0 hc1).2.2.1, y ∈ pc.1.set :=
  View.cover_of_tiledL (P.runC xs hc0 hc1).2.2.1 S1024x1024.size (by sl_kernel_rfl) y
theorem Pt0.coverC3 (hc0 : ¬cond0_0 P.i) (hc1 : cond0_1 P.i) (y : S1024x1024.Idx) : ∃ pc ∈ (P.runC xs hc0 hc1).1, y ∈ pc.1.set :=
  View.cover_of_tiledL (P.runC xs hc0 hc1).1 S1024x1024.size (by sl_kernel_rfl) y
theorem Pt0.coverC4 (hc0 : ¬cond0_0 P.i) (hc1 : cond0_1 P.i) (y : S1024x1.Idx) : ∃ pc ∈ (P.runC xs hc0 hc1).2.1, y ∈ pc.1.set :=
  View.cover_of_tiledL (P.runC xs hc0 hc1).2.1 S1024x1.size (by sl_kernel_rfl) y
end

section
variable (V : (c : Dev nD) → (b : Ref sig .tc) → Buf (Elt F) ((c : Thread nD τ).loc b))

def pt0 (c : Dev nD) (t : Fin cfg0.N) : Pt0 F :=
  ⟨c, grid0.coords t, ms0_0 t, hs0_0 t, ms0_1 t, hs0_1 t, ms0_2 t, hs0_2 t, ms0_3 t, hs0_3 t, ms0_4 t, hs0_4 t, scM0_0, Memref.isWhole_whole _, iblk0 V c 0 t, iblk0 V c 1 t, iblk0 V c 2 t⟩

def outA0 (c : Dev nD) (t : Fin cfg0.N) (h0 : t.val % 4 = 0) (h1 : ¬t.val % 4 = 3) :=
  (pt0 V c t).outA ((hcond0_0 t).mpr h0) (fun h => h1 ((hcond0_1 t).mp h))
def outB0 (c : Dev nD) (t : Fin cfg0.N) (h0 : ¬t.val % 4 = 0) (h1 : ¬t.val % 4 = 3) (xs : Vec F S1024x1024 .f32) :=
  (pt0 V c t).outB xs (fun h => h0 ((hcond0_0 t).mp h)) (fun h => h1 ((hcond0_1 t).mp h))
def outC0 (c : Dev nD) (t : Fin cfg0.N) (h0 : ¬t.val % 4 = 0) (h1 : t.val % 4 = 3) (xs : Vec F S1024x1024 .f32) :=
  (pt0 V c t).outC xs (fun h => h0 ((hcond0_0 t).mp h)) ((hcond0_1 t).mpr h1)

/-- (features block, squared-norms block, accumulator) after the body at position `n`: the case `n % 4` selects, run from what the position before left in the accumulator. -/
def outsAt0 (c : Dev nD) : (n : ℕ) → n < cfg0.N → Vec F S1024x1024 .bf16 × Vec F S1024x1 .f32 × Vec F S1024x1024 .f32
  | 0, hn => outA0 V c ⟨0, hn⟩ (Nat.zero_mod _) (by show ¬0 % 4 = 3; decide)
  | n + 1, hn =>
    if h0 : (n + 1) % 4 = 0 then outA0 V c ⟨n + 1, hn⟩ h0 (by show ¬(n + 1) % 4 = 3; omega)
    else if h1 : (n + 1) % 4 = 3 then outC0 V c ⟨n + 1, hn⟩ h0 h1 (outsAt0 c n (Nat.lt_of_succ_lt hn)).2.2
    else outB0 V c ⟨n + 1, hn⟩ h0 h1 (outsAt0 c n (Nat.lt_of_succ_lt hn)).2.2

abbrev prev0 (c : Dev nD) (t : Fin cfg0.N) : Vec F S1024x1024 .f32 := (outsAt0 V c (t.val - 1) (Nat.lt_of_le_of_lt (Nat.sub_le _ _) t.isLt)).2.2

theorem outsAt0_A (c : Dev nD) (t : Fin cfg0.N) (h0 : t.val % 4 = 0) (h1 : ¬t.val % 4 = 3) :
    outsAt0 V c t.val t.isLt = outA0 V c t h0 h1 := by
  obtain ⟨n, hn⟩ := t
  cases n with
  | zero => rfl
  | succ n => exact dif_pos h0

theorem outsAt0_B (c : Dev nD) (t : Fin cfg0.N) (h0 : ¬t.val % 4 = 0) (h1 : ¬t.val % 4 = 3) :
    outsAt0 V c t.val t.isLt = outB0 V c t h0 h1 (prev0 V c t) := by
  obtain ⟨n, hn⟩ := t
  cases n with
  | zero => exact absurd (Nat.zero_mod _) h0
  | succ n => exact (dif_neg h0).trans (dif_neg h1)

theorem outsAt0_C (c : Dev nD) (t : Fin cfg0.N) (h0 : ¬t.val % 4 = 0) (h1 : t.val % 4 = 3) :
    outsAt0 V c t.val t.isLt = outC0 V c t h0 h1 (prev0 V c t) := by
  obtain ⟨n, hn⟩ := t
  cases n with
  | zero => exact absurd (Nat.zero_mod _) h0
  | succ n => exact (dif_neg h0).trans (dif_pos h1)

/-- Before position `n` the accumulator holds anything at the start, afterwards what the position before left. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2.2) ∗ others0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0_0 fullShare ((outsAt0 V c n hn).2.2) ∗ others0 c) ∗ (∃ r, prngReg c r)) := rfl
theorem PhiS0_pos (c : Dev nD) (n : ℕ) (h : n ≤ cfg0.N) (hz : n ≠ 0) :
    PhiS0 V c n h = iprop(iprop(owns (c : Thread nD τ) scM0_0 fullShare ((outsAt0 V c (n - 1) (by omega)).2.2) ∗ others0 c) ∗ (∃ r, prngReg c r)) := by
  cases n with
  | zero => exact absurd rfl hz
  | succ n => rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
    | ⟨4, _⟩ => (outsAt0 V c t.val t.isLt).2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem after0_4 (c : Dev nD) (t : Fin cfg0.N) : (dat0 V c).after 4 t = (outsAt0 V c t.val t.isLt).2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, Hoth⟩, Hg⟩
  isplitl [HS0 Hoth]
  · isplitl [HS0]
    · iexists _; iexact HS0
    iexact Hoth
  iexact Hg

/-- At every position the accumulator is owned at some contents. -/
theorem Phi_any0 (c : Dev nD) (t : Fin (cfg0.N + 1)) : (dat0 V c).Φ t ⊢ Pipeline.ΦA spec0 c := by
  by_cases ht : t.val = 0
  · rw [show (dat0 V c).Φ t = PhiS0 V c t.val (Nat.le_of_lt_succ t.isLt) from rfl, PhiS0_zero V c _ _ ht]
  · exact Phi_out0 V c t ht

theorem hout0 (c : Dev nD) : (dat0 V c).Φ (Fin.last cfg0.N) ⊢ Pipeline.ΦA spec0 c :=
  Phi_out0 V c _ (by rw [Fin.val_last]; have : cfg0.N = 16 := N_0; omega)

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

theorem leaves0_0 (c : Dev nD) (t : Fin cfg0.N) : (dat0 V c).leavesExact 0 t = owns (c : Thread nD τ) (ms0_0 t) fullShare (iblk0 V c 0 t) := by
  unfold Dat.leavesExact; rw [liveAt0_0 t, after0_0]
theorem leaves0_1 (c : Dev nD) (t : Fin cfg0.N) : (dat0 V c).leavesExact 1 t = owns (c : Thread nD τ) (ms0_1 t) fullShare (iblk0 V c 1 t) := by
  unfold Dat.leavesExact; rw [liveAt0_1 t, after0_1]
theorem leaves0_2 (c : Dev nD) (t : Fin cfg0.N) : (dat0 V c).leavesExact 2 t = owns (c : Thread nD τ) (ms0_2 t) fullShare (iblk0 V c 2 t) := by
  unfold Dat.leavesExact; rw [liveAt0_2 t, after0_2]

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  have hN : t.val < 16 := lt_of_lt_of_eq t.isLt (show cfg0.N = 16 from N_0)
  rw [leaves0_0, leaves0_1, leaves0_2]
  by_cases h1 : t.val % 4 = 3
  · have h0 : ¬t.val % 4 = 0 := by omega
    have hz : t.val ≠ 0 := by omega
    rw [show (dat0 V c).leavesExact 3 t = owns (c : Thread nD τ) (ms0_3 t) fullShare ((dat0 V c).after 3 t) from by
      unfold Dat.leavesExact; rw [liveAt0_3 t ((hcond0_1 t).mpr h1)], after0_3]
    rw [show (dat0 V c).leavesExact 4 t = owns (c : Thread nD τ) (ms0_4 t) fullShare ((dat0 V c).after 4 t) from by
      unfold Dat.leavesExact; rw [liveAt0_4 t ((hcond0_1 t).mpr h1)], after0_4]
    rw [outsAt0_C V c t h0 h1]
    dsimp only [outC0, Pt0.outC, rd0]
    rw [PhiS0_castSucc V c t, PhiS0_pos V c _ _ hz]
    iintro ⟨⟨⟨HS0, Hoth⟩, Hg⟩, Ho, ⟨%d0, H0⟩, ⟨%d1, H1⟩, ⟨%d2, H2⟩, ⟨%d3, H3⟩, ⟨%d4, H4⟩⟩
    iapply (((pt0 V c t).runC _ (fun h => h0 ((hcond0_0 t).mp h)) ((hcond0_1 t).mpr h1)).2.2.2 Set.univ _)
    isplitl [H0]; · iexact H0
    isplitl [H1]; · iexact H1
    isplitl [H2]; · iexact H2
    isplitl [H3]; · iexists _; iexact H3
    isplitl [H4]; · iexists _; iexact H4
    isplitl [HS0]; · iexact HS0
    iintro ⟨H0, H1, H2, ⟨%e3, H3⟩, ⟨%e4, H4⟩, ⟨%es0, HS0⟩⟩
    isplitl [HS0 Hoth Hg]
    · isplitl [HS0 Hoth]
      · isplitl [HS0]
        · unfold owns; iexists _; isplitr
          swap; · iexact HS0
          ipureintro; exact View.read_writes_of_cover _ _ _ _ _ ((pt0 V c t).scoverC _ _ _)
        iexact Hoth
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ ((pt0 V c t).coverC3 _ _ _)
    unfold owns; iexists _; isplitr
    swap; · iexact H4
    ipureintro; exact View.read_writes_of_cover _ _ _ _ _ ((pt0 V c t).coverC4 _ _ _)
  · rw [Dat.leavesExact_idle (dat0 V c) 3 t (idleAt0_3 t (fun h => h1 ((hcond0_1 t).mp h))) (noFlush0_3 t (fun h => h1 ((hcond0_1 t).mp h)))]
    rw [Dat.leavesExact_idle (dat0 V c) 4 t (idleAt0_4 t (fun h => h1 ((hcond0_1 t).mp h))) (noFlush0_4 t (fun h => h1 ((hcond0_1 t).mp h)))]
    by_cases h0 : t.val % 4 = 0
    · rw [outsAt0_A V c t h0 h1]
      dsimp only [outA0, Pt0.outA, rd0]
      refine (sep_mono (Phi_any0 V c t.castSucc) .rfl).trans ?_
      rw [PhiA0_eq]
      iintro ⟨⟨⟨HS0, Hoth⟩, Hg⟩, Ho, ⟨%d0, H0⟩, ⟨%d1, H1⟩, ⟨%d2, H2⟩, ⟨%d3, H3⟩, ⟨%d4, H4⟩⟩
      iapply (((pt0 V c t).runA ((hcond0_0 t).mpr h0) (fun h => h1 ((hcond0_1 t).mp h))).2.2.2 _ _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ ((pt0 V c t).scoverA _ _)
          iexact Hoth
        iexact Hg
      isplitl [Ho]; · iexact Ho
      isplitl [H0]; · iexact H0
      isplitl [H1]; · iexact H1
      isplitl [H2]; · iexact H2
      isplitl [H3]; · iexists _; iexact H3
      iexists _; iexact H4
    · have hz : t.val ≠ 0 := by omega
      rw [outsAt0_B V c t h0 h1]
      dsimp only [outB0, Pt0.outB, rd0]
      rw [PhiS0_castSucc V c t, PhiS0_pos V c _ _ hz]
      iintro ⟨⟨⟨HS0, Hoth⟩, Hg⟩, Ho, ⟨%d0, H0⟩, ⟨%d1, H1⟩, ⟨%d2, H2⟩, ⟨%d3, H3⟩, ⟨%d4, H4⟩⟩
      iapply (((pt0 V c t).runB _ (fun h => h0 ((hcond0_0 t).mp h)) (fun h => h1 ((hcond0_1 t).mp h))).2.2.2 _ _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ ((pt0 V c t).scoverB _ _ _)
          iexact Hoth
        iexact Hg
      isplitl [Ho]; · iexact Ho
      isplitl [H0]; · iexact H0
      isplitl [H1]; · iexact H1
      isplitl [H2]; · iexact H2
      isplitl [H3]; · iexists _; iexact H3
      iexists _; iexact H4

theorem body_obligation0 (c : Dev nD) : BodyObligation (dat0 (F := F) V c) (defs₀ (F := F)) Variants.none () Set.univ := fun t => by
  rw [bigSep_W0, bigSep_W0]
  exact sound_body0 V c t

end

end Cert.Kernel.Fr

end
-- ==== Proof.K.R1Base.lean ====
import proofs.«148324_j39651138077344_1_alg».proof.Proof.Gen.Kernel.Launch
import proofs.«148324_j39651138077344_1_alg».proof.Proof.Gen.Kernel.Skeleton
import proofs.«148324_j39651138077344_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
end

abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
theorem liveAt1_4 : ∀ t : Fin cfg1.N, cond1_1 (grid1.coords t) → cfg1.idle 4 (grid1.coords t) = false := by decide +kernel

abbrev VO1_3 : View sig .tc .vmem S1024x1024 .bf16 := (Memref.whole cc1_stg3_0 : Memref sig .tc .vmem S1024x1024 .bf16).view
abbrev VO1_4 : View sig .tc .vmem S1024x1 .f32 := (Memref.whole cc1_stg4_0 : Memref sig .tc .vmem S1024x1 .f32).view
abbrev ms1_0 (t : Fin cfg1.N) : Memref sig .tc .vmem S1024x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x1 .f32 := win1_4.stage (cfg1.slots t 4)
abbrev hs1_4 (t : Fin cfg1.N) : (ms1_4 t).IsWhole := hstage1_4 ((cfg1.slots t 4).cast nbuf1_4)
abbrev scM1_0 : Memref sig .tc .vmem S1024x1024 .f32 := Memref.whole cc1_scratch0
abbrev VS1_0 : View sig .tc .vmem S1024x1024 .f32 := scM1_0.view

abbrev others1 (c : Dev nD) : sProp 𝕄 := Pipeline.scopedRestBut spec1 c [cc1_scratch0]

/-- The region's own scoped buffers with the accumulator split off, owned at some contents. -/
theorem PhiA1_eq (c : Dev nD) :
    (Pipeline.ΦA spec1 c : sProp 𝕄)
      = iprop(iprop((∃ d, owns (c : Thread nD τ) scM1_0 fullShare d) ∗ others1 c) ∗ (∃ r, prngReg c r)) := by
  unfold Pipeline.ΦA
  rw [Pipeline.scopedRest_split_of_list spec1 c [cc1_scratch0] (by decide) (by decide)]
  simp only [bigSepL_singleton, scM1_0, owns_whole]; try rfl

set_option genInjectivity false in
set_option genSizeOfSpec false in
/-- What the body runs on at a grid point: its six whole buffers and the three blocks it loads. -/
structure Pt1 (F : FTy → Type) where
  c : Dev nD
  i : grid1.Coords
  a2 : Memref sig .tc .vmem S1024x512 .f32
  h2 : a2.IsWhole
  a3 : Memref sig .tc .vmem S512x1024 .f32
  h3 : a3.IsWhole
  a4 : Memref sig .tc .vmem S1x1024 .f32
  h4 : a4.IsWhole
  a5 : Memref sig .tc .vmem S1024x1024 .bf16
  h5 : a5.IsWhole
  a6 : Memref sig .tc .vmem S1024x1 .f32
  h6 : a6.IsWhole
  a7 : Memref sig .tc .vmem S1024x1024 .f32
  h7 : a7.IsWhole
  x0 : Vec F S1024x512 .f32
  x1 : Vec F S512x1024 .f32
  x2 : Vec F S1x1024 .f32

end Cert.Kernel.Fr

end
-- ==== Proof.K.R1RunA.lean ====
import proofs.«148324_j39651138077344_1_alg».proof.Proof.K.R1Base

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_A (c : Dev nD) (i : grid1.Coords) (arg2 : Memref sig .tc .vmem S1024x512 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1024x1 .f32) (harg6 : arg6.IsWhole) (arg7 : Memref sig .tc .vmem S1024x1024 .f32) (harg7 : arg7.IsWhole) (hc0 : cond1_0 i) (hc1 : ¬cond1_1 i)
    (x0 : Vec F S1024x512 .f32) (x1 : Vec F S512x1024 .f32) (x2 : Vec F S1x1024 .f32) :
    Σ' (L3 : List (View.Piece (Elt F) S1024x1024 .bf16)) (L4 : List (View.Piece (Elt F) S1024x1 .f32)), { LS0 : List (View.Piece (Elt F) S1024x1024 .f32) //
      ∀ (xi3 : Vec F S1024x1024 .bf16) (xi4 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1__linear_rownorm_kernel i arg2 harg2 arg3 harg3 arg4 harg4 arg5 harg5 arg6 harg6 arg7 harg7) K } := by
  refine ⟨[], [], ?_, fun xi3 xi4 E K => ?run⟩
  case run =>
    simp only [cc1__linear_rownorm_kernel_eq_skeleton]; unfold cc1__linear_rownorm_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Fr

end
-- ==== Proof.K.R1RunB.lean ====
import proofs.«148324_j39651138077344_1_alg».proof.Proof.K.R1Base

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_B (c : Dev nD) (i : grid1.Coords) (arg2 : Memref sig .tc .vmem S1024x512 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1024x1 .f32) (harg6 : arg6.IsWhole) (arg7 : Memref sig .tc .vmem S1024x1024 .f32) (harg7 : arg7.IsWhole) (hc0 : ¬cond1_0 i) (hc1 : ¬cond1_1 i)
    (x0 : Vec F S1024x512 .f32) (x1 : Vec F S512x1024 .f32) (x2 : Vec F S1x1024 .f32) (xs0 : Vec F S1024x1024 .f32) :
    Σ' (L3 : List (View.Piece (Elt F) S1024x1024 .bf16)) (L4 : List (View.Piece (Elt F) S1024x1 .f32)), { LS0 : List (View.Piece (Elt F) S1024x1024 .f32) //
      ∀ (xi3 : Vec F S1024x1024 .bf16) (xi4 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1__linear_rownorm_kernel i arg2 harg2 arg3 harg3 arg4 harg4 arg5 harg5 arg6 harg6 arg7 harg7) K } := by
  refine ⟨[], [], ?_, fun xi3 xi4 E K => ?run⟩
  case run =>
    simp only [cc1__linear_rownorm_kernel_eq_skeleton]; unfold cc1__linear_rownorm_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Fr

end
-- ==== Proof.K.R1RunC.lean ====
import proofs.«148324_j39651138077344_1_alg».proof.Proof.K.R1Base

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_C (c : Dev nD) (i : grid1.Coords) (arg2 : Memref sig .tc .vmem S1024x512 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1024x1 .f32) (harg6 : arg6.IsWhole) (arg7 : Memref sig .tc .vmem S1024x1024 .f32) (harg7 : arg7.IsWhole) (hc0 : ¬cond1_0 i) (hc1 : cond1_1 i)
    (x0 : Vec F S1024x512 .f32) (x1 : Vec F S512x1024 .f32) (x2 : Vec F S1x1024 .f32) (xs0 : Vec F S1024x1024 .f32) :
    Σ' (L3 : List (View.Piece (Elt F) S1024x1024 .bf16)) (L4 : List (View.Piece (Elt F) S1024x1 .f32)), { LS0 : List (View.Piece (Elt F) S1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc1__linear_rownorm_kernel i arg2 harg2 arg3 harg3 arg4 harg4 arg5 harg5 arg6 harg6 arg7 harg7) K } := by
  refine ⟨?_, ?_, ?_, fun E K => ?run⟩
  case run =>
    simp only [cc1__linear_rownorm_kernel_eq_skeleton]; unfold cc1__linear_rownorm_kernel_skel
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    iexists _; iexact HS0

end Cert.Kernel.Fr

end
-- ==== Proof.K.R1Dat.lean ====
import proofs.«148324_j39651138077344_1_alg».proof.Proof.K.R1RunA
import proofs.«148324_j39651138077344_1_alg».proof.Proof.K.R1RunB
import proofs.«148324_j39651138077344_1_alg».proof.Proof.K.R1RunC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The two result buffers and the accumulator, read back after a list of stores into each. -/
def rd1 (L3 : List (View.Piece (Elt F) S1024x1024 .bf16)) (L4 : List (View.Piece (Elt F) S1024x1 .f32)) (LS : List (View.Piece (Elt F) S1024x1024 .f32)) :
    Vec F S1024x1024 .bf16 × Vec F S1024x1 .f32 × Vec F S1024x1024 .f32 :=
  (VO1_3.read (Elt F) (VO1_3.writes (Elt F) VO1_3.junk L3), VO1_4.read (Elt F) (VO1_4.writes (Elt F) VO1_4.junk L4), VS1_0.read (Elt F) (VS1_0.writes (Elt F) VS1_0.junk LS))

section
variable (P : Pt1 F) (xs : Vec F S1024x1024 .f32)

def Pt1.runA (hc0 : cond1_0 P.i) (hc1 : ¬cond1_1 P.i) :=
  kernelRun1_A P.c P.i P.a2 P.h2 P.a3 P.h3 P.a4 P.h4 P.a5 P.h5 P.a6 P.h6 P.a7 P.h7 hc0 hc1 P.x0 P.x1 P.x2
def Pt1.runB (hc0 : ¬cond1_0 P.i) (hc1 : ¬cond1_1 P.i) :=
  kernelRun1_B P.c P.i P.a2 P.h2 P.a3 P.h3 P.a4 P.h4 P.a5 P.h5 P.a6 P.h6 P.a7 P.h7 hc0 hc1 P.x0 P.x1 P.x2 xs
def Pt1.runC (hc0 : ¬cond1_0 P.i) (hc1 : cond1_1 P.i) :=
  kernelRun1_C P.c P.i P.a2 P.h2 P.a3 P.h3 P.a4 P.h4 P.a5 P.h5 P.a6 P.h6 P.a7 P.h7 hc0 hc1 P.x0 P.x1 P.x2 xs

def Pt1.outA (hc0 : cond1_0 P.i) (hc1 : ¬cond1_1 P.i) := rd1 (P.runA hc0 hc1).1 (P.runA hc0 hc1).2.1 (P.runA hc0 hc1).2.2.1
def Pt1.outB (hc0 : ¬cond1_0 P.i) (hc1 : ¬cond1_1 P.i) := rd1 (P.runB xs hc0 hc1).1 (P.runB xs hc0 hc1).2.1 (P.runB xs hc0 hc1).2.2.1
def Pt1.outC (hc0 : ¬cond1_0 P.i) (hc1 : cond1_1 P.i) := rd1 (P.runC xs hc0 hc1).1 (P.runC xs hc0 hc1).2.1 (P.runC xs hc0 hc1).2.2.1

/-- Every case stores the accumulator whole, and the last case both result blocks: the stored rectangles tile the buffer. -/
theorem Pt1.scoverA (hc0 : cond1_0 P.i) (hc1 : ¬cond1_1 P.i) (y : S1024x1024.Idx) : ∃ pc ∈ (P.runA hc0 hc1).2.2.1, y ∈ pc.1.set :=
  View.cover_of_tiledL (P.runA hc0 hc1).2.2.1 S1024x1024.size (by sl_kernel_rfl) y
theorem Pt1.scoverB (hc0 : ¬cond1_0 P.i) (hc1 : ¬cond1_1 P.i) (y : S1024x1024.Idx) : ∃ pc ∈ (P.runB xs hc0 hc1).2.2.1, y ∈ pc.1.set :=
  View.cover_of_tiledL (P.runB xs hc0 hc1).2.2.1 S1024x1024.size (by sl_kernel_rfl) y
theorem Pt1.scoverC (hc0 : ¬cond1_0 P.i) (hc1 : cond1_1 P.i) (y : S1024x1024.Idx) : ∃ pc ∈ (P.runC xs hc0 hc1).2.2.1, y ∈ pc.1.set :=
  View.cover_of_tiledL (P.runC xs hc0 hc1).2.2.1 S1024x1024.size (by sl_kernel_rfl) y
theorem Pt1.coverC3 (hc0 : ¬cond1_0 P.i) (hc1 : cond1_1 P.i) (y : S1024x1024.Idx) : ∃ pc ∈ (P.runC xs hc0 hc1).1, y ∈ pc.1.set :=
  View.cover_of_tiledL (P.runC xs hc0 hc1).1 S1024x1024.size (by sl_kernel_rfl) y
theorem Pt1.coverC4 (hc0 : ¬cond1_0 P.i) (hc1 : cond1_1 P.i) (y : S1024x1.Idx) : ∃ pc ∈ (P.runC xs hc0 hc1).2.1, y ∈ pc.1.set :=
  View.cover_of_tiledL (P.runC xs hc0 hc1).2.1 S1024x1.size (by sl_kernel_rfl) y
end

section
variable (V : (c : Dev nD) → (b : Ref sig .tc) → Buf (Elt F) ((c : Thread nD τ).loc b))

def pt1 (c : Dev nD) (t : Fin cfg1.N) : Pt1 F :=
  ⟨c, grid1.coords t, ms1_0 t, hs1_0 t, ms1_1 t, hs1_1 t, ms1_2 t, hs1_2 t, ms1_3 t, hs1_3 t, ms1_4 t, hs1_4 t, scM1_0, Memref.isWhole_whole _, iblk1 V c 0 t, iblk1 V c 1 t, iblk1 V c 2 t⟩

def outA1 (c : Dev nD) (t : Fin cfg1.N) (h0 : t.val % 4 = 0) (h1 : ¬t.val % 4 = 3) :=
  (pt1 V c t).outA ((hcond1_0 t).mpr h0) (fun h => h1 ((hcond1_1 t).mp h))
def outB1 (c : Dev nD) (t : Fin cfg1.N) (h0 : ¬t.val % 4 = 0) (h1 : ¬t.val % 4 = 3) (xs : Vec F S1024x1024 .f32) :=
  (pt1 V c t).outB xs (fun h => h0 ((hcond1_0 t).mp h)) (fun h => h1 ((hcond1_1 t).mp h))
def outC1 (c : Dev nD) (t : Fin cfg1.N) (h0 : ¬t.val % 4 = 0) (h1 : t.val % 4 = 3) (xs : Vec F S1024x1024 .f32) :=
  (pt1 V c t).outC xs (fun h => h0 ((hcond1_0 t).mp h)) ((hcond1_1 t).mpr h1)

/-- (features block, squared-norms block, accumulator) after the body at position `n`: the case `n % 4` selects, run from what the position before left in the accumulator. -/
def outsAt1 (c : Dev nD) : (n : ℕ) → n < cfg1.N → Vec F S1024x1024 .bf16 × Vec F S1024x1 .f32 × Vec F S1024x1024 .f32
  | 0, hn => outA1 V c ⟨0, hn⟩ (Nat.zero_mod _) (by show ¬0 % 4 = 3; decide)
  | n + 1, hn =>
    if h0 : (n + 1) % 4 = 0 then outA1 V c ⟨n + 1, hn⟩ h0 (by show ¬(n + 1) % 4 = 3; omega)
    else if h1 : (n + 1) % 4 = 3 then outC1 V c ⟨n + 1, hn⟩ h0 h1 (outsAt1 c n (Nat.lt_of_succ_lt hn)).2.2
    else outB1 V c ⟨n + 1, hn⟩ h0 h1 (outsAt1 c n (Nat.lt_of_succ_lt hn)).2.2

abbrev prev1 (c : Dev nD) (t : Fin cfg1.N) : Vec F S1024x1024 .f32 := (outsAt1 V c (t.val - 1) (Nat.lt_of_le_of_lt (Nat.sub_le _ _) t.isLt)).2.2

theorem outsAt1_A (c : Dev nD) (t : Fin cfg1.N) (h0 : t.val % 4 = 0) (h1 : ¬t.val % 4 = 3) :
    outsAt1 V c t.val t.isLt = outA1 V c t h0 h1 := by
  obtain ⟨n, hn⟩ := t
  cases n with
  | zero => rfl
  | succ n => exact dif_pos h0

theorem outsAt1_B (c : Dev nD) (t : Fin cfg1.N) (h0 : ¬t.val % 4 = 0) (h1 : ¬t.val % 4 = 3) :
    outsAt1 V c t.val t.isLt = outB1 V c t h0 h1 (prev1 V c t) := by
  obtain ⟨n, hn⟩ := t
  cases n with
  | zero => exact absurd (Nat.zero_mod _) h0
  | succ n => exact (dif_neg h0).trans (dif_neg h1)

theorem outsAt1_C (c : Dev nD) (t : Fin cfg1.N) (h0 : ¬t.val % 4 = 0) (h1 : t.val % 4 = 3) :
    outsAt1 V c t.val t.isLt = outC1 V c t h0 h1 (prev1 V c t) := by
  obtain ⟨n, hn⟩ := t
  cases n with
  | zero => exact absurd (Nat.zero_mod _) h0
  | succ n => exact (dif_neg h0).trans (dif_pos h1)

/-- Before position `n` the accumulator holds anything at the start, afterwards what the position before left. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2.2) ∗ others1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1_0 fullShare ((outsAt1 V c n hn).2.2) ∗ others1 c) ∗ (∃ r, prngReg c r)) := rfl
theorem PhiS1_pos (c : Dev nD) (n : ℕ) (h : n ≤ cfg1.N) (hz : n ≠ 0) :
    PhiS1 V c n h = iprop(iprop(owns (c : Thread nD τ) scM1_0 fullShare ((outsAt1 V c (n - 1) (by omega)).2.2) ∗ others1 c) ∗ (∃ r, prngReg c r)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
    | ⟨4, _⟩ => (outsAt1 V c t.val t.isLt).2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem after1_4 (c : Dev nD) (t : Fin cfg1.N) : (dat1 V c).after 4 t = (outsAt1 V c t.val t.isLt).2.1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, Hoth⟩, Hg⟩
  isplitl [HS0 Hoth]
  · isplitl [HS0]
    · iexists _; iexact HS0
    iexact Hoth
  iexact Hg

/-- At every position the accumulator is owned at some contents. -/
theorem Phi_any1 (c : Dev nD) (t : Fin (cfg1.N + 1)) : (dat1 V c).Φ t ⊢ Pipeline.ΦA spec1 c := by
  by_cases ht : t.val = 0
  · rw [show (dat1 V c).Φ t = PhiS1 V c t.val (Nat.le_of_lt_succ t.isLt) from rfl, PhiS1_zero V c _ _ ht]
  · exact Phi_out1 V c t ht

theorem hout1 (c : Dev nD) : (dat1 V c).Φ (Fin.last cfg1.N) ⊢ Pipeline.ΦA spec1 c :=
  Phi_out1 V c _ (by rw [Fin.val_last]; have : cfg1.N = 8 := N_1; omega)

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

theorem leaves1_0 (c : Dev nD) (t : Fin cfg1.N) : (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) : (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) : (dat1 V c).leavesExact 2 t = owns (c : Thread nD τ) (ms1_2 t) fullShare (iblk1 V c 2 t) := by
  unfold Dat.leavesExact; rw [liveAt1_2 t, after1_2]

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 8 := lt_of_lt_of_eq t.isLt (show cfg1.N = 8 from N_1)
  rw [leaves1_0, leaves1_1, leaves1_2]
  by_cases h1 : t.val % 4 = 3
  · have h0 : ¬t.val % 4 = 0 := by omega
    have hz : t.val ≠ 0 := by omega
    rw [show (dat1 V c).leavesExact 3 t = owns (c : Thread nD τ) (ms1_3 t) fullShare ((dat1 V c).after 3 t) from by
      unfold Dat.leavesExact; rw [liveAt1_3 t ((hcond1_1 t).mpr h1)], after1_3]
    rw [show (dat1 V c).leavesExact 4 t = owns (c : Thread nD τ) (ms1_4 t) fullShare ((dat1 V c).after 4 t) from by
      unfold Dat.leavesExact; rw [liveAt1_4 t ((hcond1_1 t).mpr h1)], after1_4]
    rw [outsAt1_C V c t h0 h1]
    dsimp only [outC1, Pt1.outC, rd1]
    rw [PhiS1_castSucc V c t, PhiS1_pos V c _ _ hz]
    iintro ⟨⟨⟨HS0, Hoth⟩, Hg⟩, Ho, ⟨%d0, H0⟩, ⟨%d1, H1⟩, ⟨%d2, H2⟩, ⟨%d3, H3⟩, ⟨%d4, H4⟩⟩
    iapply (((pt1 V c t).runC _ (fun h => h0 ((hcond1_0 t).mp h)) ((hcond1_1 t).mpr h1)).2.2.2 Set.univ _)
    isplitl [H0]; · iexact H0
    isplitl [H1]; · iexact H1
    isplitl [H2]; · iexact H2
    isplitl [H3]; · iexists _; iexact H3
    isplitl [H4]; · iexists _; iexact H4
    isplitl [HS0]; · iexact HS0
    iintro ⟨H0, H1, H2, ⟨%e3, H3⟩, ⟨%e4, H4⟩, ⟨%es0, HS0⟩⟩
    isplitl [HS0 Hoth Hg]
    · isplitl [HS0 Hoth]
      · isplitl [HS0]
        · unfold owns; iexists _; isplitr
          swap; · iexact HS0
          ipureintro; exact View.read_writes_of_cover _ _ _ _ _ ((pt1 V c t).scoverC _ _ _)
        iexact Hoth
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ ((pt1 V c t).coverC3 _ _ _)
    unfold owns; iexists _; isplitr
    swap; · iexact H4
    ipureintro; exact View.read_writes_of_cover _ _ _ _ _ ((pt1 V c t).coverC4 _ _ _)
  · rw [Dat.leavesExact_idle (dat1 V c) 3 t (idleAt1_3 t (fun h => h1 ((hcond1_1 t).mp h))) (noFlush1_3 t (fun h => h1 ((hcond1_1 t).mp h)))]
    rw [Dat.leavesExact_idle (dat1 V c) 4 t (idleAt1_4 t (fun h => h1 ((hcond1_1 t).mp h))) (noFlush1_4 t (fun h => h1 ((hcond1_1 t).mp h)))]
    by_cases h0 : t.val % 4 = 0
    · rw [outsAt1_A V c t h0 h1]
      dsimp only [outA1, Pt1.outA, rd1]
      refine (sep_mono (Phi_any1 V c t.castSucc) .rfl).trans ?_
      rw [PhiA1_eq]
      iintro ⟨⟨⟨HS0, Hoth⟩, Hg⟩, Ho, ⟨%d0, H0⟩, ⟨%d1, H1⟩, ⟨%d2, H2⟩, ⟨%d3, H3⟩, ⟨%d4, H4⟩⟩
      iapply (((pt1 V c t).runA ((hcond1_0 t).mpr h0) (fun h => h1 ((hcond1_1 t).mp h))).2.2.2 _ _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ ((pt1 V c t).scoverA _ _)
          iexact Hoth
        iexact Hg
      isplitl [Ho]; · iexact Ho
      isplitl [H0]; · iexact H0
      isplitl [H1]; · iexact H1
      isplitl [H2]; · iexact H2
      isplitl [H3]; · iexists _; iexact H3
      iexists _; iexact H4
    · have hz : t.val ≠ 0 := by omega
      rw [outsAt1_B V c t h0 h1]
      dsimp only [outB1, Pt1.outB, rd1]
      rw [PhiS1_castSucc V c t, PhiS1_pos V c _ _ hz]
      iintro ⟨⟨⟨HS0, Hoth⟩, Hg⟩, Ho, ⟨%d0, H0⟩, ⟨%d1, H1⟩, ⟨%d2, H2⟩, ⟨%d3, H3⟩, ⟨%d4, H4⟩⟩
      iapply (((pt1 V c t).runB _ (fun h => h0 ((hcond1_0 t).mp h)) (fun h => h1 ((hcond1_1 t).mp h))).2.2.2 _ _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ ((pt1 V c t).scoverB _ _ _)
          iexact Hoth
        iexact Hg
      isplitl [Ho]; · iexact Ho
      isplitl [H0]; · iexact H0
      isplitl [H1]; · iexact H1
      isplitl [H2]; · iexact H2
      isplitl [H3]; · iexists _; iexact H3
      iexists _; iexact H4

theorem body_obligation1 (c : Dev nD) : BodyObligation (dat1 (F := F) V c) (defs₀ (F := F)) Variants.none () Set.univ := fun t => by
  rw [bigSep_W1, bigSep_W1]
  exact sound_body1 V c t

end

end Cert.Kernel.Fr

end
-- ==== Proof.K.R2Base.lean ====
import proofs.«148324_j39651138077344_1_alg».proof.Proof.Gen.Kernel.Launch
import proofs.«148324_j39651138077344_1_alg».proof.Proof.Gen.Kernel.Skeleton
import proofs.«148324_j39651138077344_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
end

abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 2 = 0 :=
  (by decide +kernel : ∀ t : Fin grid2.N, cond2_0 (grid2.coords t) ↔ t.val % 2 = 0)
abbrev cond2_1 (i : grid2.Coords) : Prop := k2_cond2 i = 1#1
theorem hcond2_1 : ∀ t : Fin cfg2.N, cond2_1 (grid2.coords t) ↔ t.val % 2 = 1 :=
  (by decide +kernel : ∀ t : Fin grid2.N, cond2_1 (grid2.coords t) ↔ t.val % 2 = 1)

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem idleAt2_4 : ∀ t : Fin cfg2.N, ¬cond2_1 (grid2.coords t) → cfg2.idle 4 (grid2.coords t) = true := by decide +kernel
theorem noFlush2_4 : ∀ t : Fin cfg2.N, ¬cond2_1 (grid2.coords t) → (cfg2.win 4).flush t = false := by decide +kernel
theorem liveAt2_4 : ∀ t : Fin cfg2.N, cond2_1 (grid2.coords t) → cfg2.idle 4 (grid2.coords t) = false := by decide +kernel

abbrev VO2_4 : View sig .tc .vmem S1024x1 .f32 := (Memref.whole cc2_stg4_0 : Memref sig .tc .vmem S1024x1 .f32).view
abbrev ms2_0 (t : Fin cfg2.N) : Memref sig .tc .vmem S1024x1024 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x1 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x1024 .bf16 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x1024 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1024x1 .f32 := win2_4.stage (cfg2.slots t 4)
abbrev hs2_4 (t : Fin cfg2.N) : (ms2_4 t).IsWhole := hstage2_4 ((cfg2.slots t 4).cast nbuf2_4)
abbrev scM2_0 : Memref sig .tc .vmem S1024x1 .f32 := Memref.whole cc2_scratch0
abbrev VS2_0 : View sig .tc .vmem S1024x1 .f32 := scM2_0.view

abbrev others2 (c : Dev nD) : sProp 𝕄 := Pipeline.scopedRestBut spec2 c [cc2_scratch0]

/-- The region's own scoped buffers with the accumulator split off, owned at some contents. -/
theorem PhiA2_eq (c : Dev nD) :
    (Pipeline.ΦA spec2 c : sProp 𝕄)
      = iprop(iprop((∃ d, owns (c : Thread nD τ) scM2_0 fullShare d) ∗ others2 c) ∗ (∃ r, prngReg c r)) := by
  unfold Pipeline.ΦA
  rw [Pipeline.scopedRest_split_of_list spec2 c [cc2_scratch0] (by decide) (by decide)]
  simp only [bigSepL_singleton, scM2_0, owns_whole]; try rfl

set_option genInjectivity false in
set_option genSizeOfSpec false in
/-- What the body runs on at a grid point: its six whole buffers and the four blocks it loads. -/
structure Pt2 (F : FTy → Type) where
  c : Dev nD
  i : grid2.Coords
  a2 : Memref sig .tc .vmem S1024x1024 .bf16
  h2 : a2.IsWhole
  a3 : Memref sig .tc .vmem S1024x1 .f32
  h3 : a3.IsWhole
  a4 : Memref sig .tc .vmem S1024x1024 .bf16
  h4 : a4.IsWhole
  a5 : Memref sig .tc .vmem S1x1024 .f32
  h5 : a5.IsWhole
  a6 : Memref sig .tc .vmem S1024x1 .f32
  h6 : a6.IsWhole
  a7 : Memref sig .tc .vmem S1024x1 .f32
  h7 : a7.IsWhole
  x0 : Vec F S1024x1024 .bf16
  x1 : Vec F S1024x1 .f32
  x2 : Vec F S1024x1024 .bf16
  x3 : Vec F S1x1024 .f32

end Cert.Kernel.Fr

end
-- ==== Proof.K.R2RunA.lean ====
import proofs.«148324_j39651138077344_1_alg».proof.Proof.K.R2Base

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun2_A (c : Dev nD) (i : grid2.Coords) (arg2 : Memref sig .tc .vmem S1024x1024 .bf16) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1024x1 .f32) (harg7 : arg7.IsWhole) (hc0 : cond2_0 i) (hc1 : ¬cond2_1 i)
    (x0 : Vec F S1024x1024 .bf16) (x1 : Vec F S1024x1 .f32) (x2 : Vec F S1024x1024 .bf16) (x3 : Vec F S1x1024 .f32) :
    Σ' (L4 : List (View.Piece (Elt F) S1024x1 .f32)), { LS0 : List (View.Piece (Elt F) S1024x1 .f32) //
      ∀ (xi4 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc2_kernel i arg2 harg2 arg3 harg3 arg4 harg4 arg5 harg5 arg6 harg6 arg7 harg7) K } := by
  refine ⟨[], ?_, fun xi4 E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Fr

end
-- ==== Proof.K.R2RunC.lean ====
import proofs.«148324_j39651138077344_1_alg».proof.Proof.K.R2Base

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun2_C (c : Dev nD) (i : grid2.Coords) (arg2 : Memref sig .tc .vmem S1024x1024 .bf16) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1024x1 .f32) (harg7 : arg7.IsWhole) (hc0 : ¬cond2_0 i) (hc1 : cond2_1 i)
    (x0 : Vec F S1024x1024 .bf16) (x1 : Vec F S1024x1 .f32) (x2 : Vec F S1024x1024 .bf16) (x3 : Vec F S1x1024 .f32) (xs0 : Vec F S1024x1 .f32) :
    Σ' (L4 : List (View.Piece (Elt F) S1024x1 .f32)), { LS0 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc2_kernel i arg2 harg2 arg3 harg3 arg4 harg4 arg5 harg5 arg6 harg6 arg7 harg7) K } := by
  refine ⟨?_, ?_, fun E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.Kernel.Fr

end
-- ==== Proof.K.R2Dat.lean ====
import proofs.«148324_j39651138077344_1_alg».proof.Proof.K.R2RunA
import proofs.«148324_j39651138077344_1_alg».proof.Proof.K.R2RunC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The result buffer and the accumulator, read back after a list of stores into each. -/
def rd2 (L4 LS : List (View.Piece (Elt F) S1024x1 .f32)) : Vec F S1024x1 .f32 × Vec F S1024x1 .f32 :=
  (VO2_4.read (Elt F) (VO2_4.writes (Elt F) VO2_4.junk L4), VS2_0.read (Elt F) (VS2_0.writes (Elt F) VS2_0.junk LS))

section
variable (P : Pt2 F) (xs : Vec F S1024x1 .f32)

def Pt2.runA (hc0 : cond2_0 P.i) (hc1 : ¬cond2_1 P.i) :=
  kernelRun2_A P.c P.i P.a2 P.h2 P.a3 P.h3 P.a4 P.h4 P.a5 P.h5 P.a6 P.h6 P.a7 P.h7 hc0 hc1 P.x0 P.x1 P.x2 P.x3
def Pt2.runC (hc0 : ¬cond2_0 P.i) (hc1 : cond2_1 P.i) :=
  kernelRun2_C P.c P.i P.a2 P.h2 P.a3 P.h3 P.a4 P.h4 P.a5 P.h5 P.a6 P.h6 P.a7 P.h7 hc0 hc1 P.x0 P.x1 P.x2 P.x3 xs

def Pt2.outA (hc0 : cond2_0 P.i) (hc1 : ¬cond2_1 P.i) := rd2 (P.runA hc0 hc1).1 (P.runA hc0 hc1).2.1
def Pt2.outC (hc0 : ¬cond2_0 P.i) (hc1 : cond2_1 P.i) := rd2 (P.runC xs hc0 hc1).1 (P.runC xs hc0 hc1).2.1

/-- Both cases store the accumulator whole, and the last case the result block: the stored rectangles tile the buffer. -/
theorem Pt2.scoverA (hc0 : cond2_0 P.i) (hc1 : ¬cond2_1 P.i) (y : S1024x1.Idx) : ∃ pc ∈ (P.runA hc0 hc1).2.1, y ∈ pc.1.set :=
  View.cover_of_tiledL (P.runA hc0 hc1).2.1 S1024x1.size (by sl_kernel_rfl) y
theorem Pt2.scoverC (hc0 : ¬cond2_0 P.i) (hc1 : cond2_1 P.i) (y : S1024x1.Idx) : ∃ pc ∈ (P.runC xs hc0 hc1).2.1, y ∈ pc.1.set :=
  View.cover_of_tiledL (P.runC xs hc0 hc1).2.1 S1024x1.size (by sl_kernel_rfl) y
theorem Pt2.coverC4 (hc0 : ¬cond2_0 P.i) (hc1 : cond2_1 P.i) (y : S1024x1.Idx) : ∃ pc ∈ (P.runC xs hc0 hc1).1, y ∈ pc.1.set :=
  View.cover_of_tiledL (P.runC xs hc0 hc1).1 S1024x1.size (by sl_kernel_rfl) y
end

theorem hc2_A0 (t : Fin cfg2.N) (h0 : t.val % 2 = 0) : cond2_0 (grid2.coords t) := (hcond2_0 t).mpr h0
theorem hc2_A1 (t : Fin cfg2.N) (h0 : t.val % 2 = 0) : ¬cond2_1 (grid2.coords t) := fun h => by
  have h1 := (hcond2_1 t).mp h; omega
theorem hc2_C0 (t : Fin cfg2.N) (h0 : ¬t.val % 2 = 0) : ¬cond2_0 (grid2.coords t) := fun h => h0 ((hcond2_0 t).mp h)
theorem hc2_C1 (t : Fin cfg2.N) (h0 : ¬t.val % 2 = 0) : cond2_1 (grid2.coords t) := (hcond2_1 t).mpr (by omega)

section
variable (V : (c : Dev nD) → (b : Ref sig .tc) → Buf (Elt F) ((c : Thread nD τ).loc b))

def pt2 (c : Dev nD) (t : Fin cfg2.N) : Pt2 F :=
  ⟨c, grid2.coords t, ms2_0 t, hs2_0 t, ms2_1 t, hs2_1 t, ms2_2 t, hs2_2 t, ms2_3 t, hs2_3 t, ms2_4 t, hs2_4 t, scM2_0, Memref.isWhole_whole _, iblk2 V c 0 t, iblk2 V c 1 t, iblk2 V c 2 t, iblk2 V c 3 t⟩

def outA2 (c : Dev nD) (t : Fin cfg2.N) (h0 : t.val % 2 = 0) := (pt2 V c t).outA (hc2_A0 t h0) (hc2_A1 t h0)
def outC2 (c : Dev nD) (t : Fin cfg2.N) (h0 : ¬t.val % 2 = 0) (xs : Vec F S1024x1 .f32) := (pt2 V c t).outC xs (hc2_C0 t h0) (hc2_C1 t h0)

/-- (result block, accumulator) after the body at position `n`: the case its parity selects, run from what the position before left in the accumulator. -/
def outsAt2 (c : Dev nD) : (n : ℕ) → n < cfg2.N → Vec F S1024x1 .f32 × Vec F S1024x1 .f32
  | 0, hn => outA2 V c ⟨0, hn⟩ (Nat.zero_mod _)
  | n + 1, hn =>
    if h0 : (n + 1) % 2 = 0 then outA2 V c ⟨n + 1, hn⟩ h0
    else outC2 V c ⟨n + 1, hn⟩ h0 (outsAt2 c n (Nat.lt_of_succ_lt hn)).2

abbrev prev2 (c : Dev nD) (t : Fin cfg2.N) : Vec F S1024x1 .f32 := (outsAt2 V c (t.val - 1) (Nat.lt_of_le_of_lt (Nat.sub_le _ _) t.isLt)).2

theorem outsAt2_A (c : Dev nD) (t : Fin cfg2.N) (h0 : t.val % 2 = 0) : outsAt2 V c t.val t.isLt = outA2 V c t h0 := by
  obtain ⟨n, hn⟩ := t
  cases n with
  | zero => rfl
  | succ n => exact dif_pos h0

theorem outsAt2_C (c : Dev nD) (t : Fin cfg2.N) (h0 : ¬t.val % 2 = 0) : outsAt2 V c t.val t.isLt = outC2 V c t h0 (prev2 V c t) := by
  obtain ⟨n, hn⟩ := t
  cases n with
  | zero => exact absurd (Nat.zero_mod _) h0
  | succ n => exact dif_neg h0

/-- Before position `n` the accumulator holds anything at the start, afterwards what the position before left. -/
def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2) ∗ others2 c) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(owns (c : Thread nD τ) scM2_0 fullShare ((outsAt2 V c n hn).2) ∗ others2 c) ∗ (∃ r, prngReg c r)) := rfl
theorem PhiS2_pos (c : Dev nD) (n : ℕ) (h : n ≤ cfg2.N) (hz : n ≠ 0) :
    PhiS2 V c n h = iprop(iprop(owns (c : Thread nD τ) scM2_0 fullShare ((outsAt2 V c (n - 1) (by omega)).2) ∗ others2 c) ∗ (∃ r, prngReg c r)) := by
  cases n with
  | zero => exact absurd rfl hz
  | succ n => rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS0, Hoth⟩, Hg⟩
  isplitl [HS0 Hoth]
  · isplitl [HS0]
    · iexists _; iexact HS0
    iexact Hoth
  iexact Hg

/-- At every position the accumulator is owned at some contents. -/
theorem Phi_any2 (c : Dev nD) (t : Fin (cfg2.N + 1)) : (dat2 V c).Φ t ⊢ Pipeline.ΦA spec2 c := by
  by_cases ht : t.val = 0
  · rw [show (dat2 V c).Φ t = PhiS2 V c t.val (Nat.le_of_lt_succ t.isLt) from rfl, PhiS2_zero V c _ _ ht]
  · exact Phi_out2 V c t ht

theorem hout2 (c : Dev nD) : (dat2 V c).Φ (Fin.last cfg2.N) ⊢ Pipeline.ΦA spec2 c :=
  Phi_out2 V c _ (by rw [Fin.val_last]; have : cfg2.N = 8 := N_2; omega)

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

theorem leaves2_0 (c : Dev nD) (t : Fin cfg2.N) : (dat2 V c).leavesExact 0 t = owns (c : Thread nD τ) (ms2_0 t) fullShare (iblk2 V c 0 t) := by
  unfold Dat.leavesExact; rw [liveAt2_0 t, after2_0]
theorem leaves2_1 (c : Dev nD) (t : Fin cfg2.N) : (dat2 V c).leavesExact 1 t = owns (c : Thread nD τ) (ms2_1 t) fullShare (iblk2 V c 1 t) := by
  unfold Dat.leavesExact; rw [liveAt2_1 t, after2_1]
theorem leaves2_2 (c : Dev nD) (t : Fin cfg2.N) : (dat2 V c).leavesExact 2 t = owns (c : Thread nD τ) (ms2_2 t) fullShare (iblk2 V c 2 t) := by
  unfold Dat.leavesExact; rw [liveAt2_2 t, after2_2]
theorem leaves2_3 (c : Dev nD) (t : Fin cfg2.N) : (dat2 V c).leavesExact 3 t = owns (c : Thread nD τ) (ms2_3 t) fullShare (iblk2 V c 3 t) := by
  unfold Dat.leavesExact; rw [liveAt2_3 t, after2_3]

set_option maxHeartbeats 4800000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  rw [leaves2_0, leaves2_1, leaves2_2, leaves2_3]
  by_cases h0 : t.val % 2 = 0
  · rw [Dat.leavesExact_idle (dat2 V c) 4 t (idleAt2_4 t (hc2_A1 t h0)) (noFlush2_4 t (hc2_A1 t h0))]
    rw [outsAt2_A V c t h0]
    dsimp only [outA2, Pt2.outA, rd2]
    refine (sep_mono (Phi_any2 V c t.castSucc) .rfl).trans ?_
    rw [PhiA2_eq]
    iintro ⟨⟨⟨HS0, Hoth⟩, Hg⟩, Ho, ⟨%d0, H0⟩, ⟨%d1, H1⟩, ⟨%d2, H2⟩, ⟨%d3, H3⟩, ⟨%d4, H4⟩⟩
    iapply (((pt2 V c t).runA (hc2_A0 t h0) (hc2_A1 t h0)).2.2 _ Set.univ _)
    isplitl [H0]; · iexact H0
    isplitl [H1]; · iexact H1
    isplitl [H2]; · iexact H2
    isplitl [H3]; · iexact H3
    isplitl [H4]; · iexact H4
    isplitl [HS0]; · iexact HS0
    iintro ⟨H0, H1, H2, H3, H4, ⟨%es0, HS0⟩⟩
    isplitl [HS0 Hoth Hg]
    · isplitl [HS0 Hoth]
      · isplitl [HS0]
        · unfold owns; iexists _; isplitr
          swap; · iexact HS0
          ipureintro; exact View.read_writes_of_cover _ _ _ _ _ ((pt2 V c t).scoverA _ _)
        iexact Hoth
      iexact Hg
    isplitl [Ho]; · iexact Ho
    isplitl [H0]; · iexact H0
    isplitl [H1]; · iexact H1
    isplitl [H2]; · iexact H2
    isplitl [H3]; · iexact H3
    iexists _; iexact H4
  · have hz : t.val ≠ 0 := fun h => h0 (by rw [h])
    rw [show (dat2 V c).leavesExact 4 t = owns (c : Thread nD τ) (ms2_4 t) fullShare ((dat2 V c).after 4 t) from by
      unfold Dat.leavesExact; rw [liveAt2_4 t (hc2_C1 t h0)], after2_4]
    rw [outsAt2_C V c t h0]
    dsimp only [outC2, Pt2.outC, rd2]
    rw [PhiS2_castSucc V c t, PhiS2_pos V c _ _ hz]
    iintro ⟨⟨⟨HS0, Hoth⟩, Hg⟩, Ho, ⟨%d0, H0⟩, ⟨%d1, H1⟩, ⟨%d2, H2⟩, ⟨%d3, H3⟩, ⟨%d4, H4⟩⟩
    iapply (((pt2 V c t).runC _ (hc2_C0 t h0) (hc2_C1 t h0)).2.2 Set.univ _)
    isplitl [H0]; · iexact H0
    isplitl [H1]; · iexact H1
    isplitl [H2]; · iexact H2
    isplitl [H3]; · iexact H3
    isplitl [H4]; · iexists _; iexact H4
    isplitl [HS0]; · iexact HS0
    iintro ⟨H0, H1, H2, H3, ⟨%e4, H4⟩, ⟨%es0, HS0⟩⟩
    isplitl [HS0 Hoth Hg]
    · isplitl [HS0 Hoth]
      · isplitl [HS0]
        · unfold owns; iexists _; isplitr
          swap; · iexact HS0
          ipureintro; exact View.read_writes_of_cover _ _ _ _ _ ((pt2 V c t).scoverC _ _ _)
        iexact Hoth
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ ((pt2 V c t).coverC4 _ _ _)

theorem body_obligation2 (c : Dev nD) : BodyObligation (dat2 (F := F) V c) (defs₀ (F := F)) Variants.none () Set.univ := fun t => by
  rw [bigSep_W2, bigSep_W2]
  exact sound_body2 V c t

end

end Cert.Kernel.Fr

end
-- ==== Proof.K.Run.lean ====
import proofs.«148324_j39651138077344_1_alg».proof.Proof.K.R0Dat
import proofs.«148324_j39651138077344_1_alg».proof.Proof.K.R1Dat
import proofs.«148324_j39651138077344_1_alg».proof.Proof.K.R2Dat
import Idealize.ShloMosaic.Lib.Pipeline.RegionsLoop
import Idealize.ShloMosaic.Lib.Pipeline.FrameSuffix

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

abbrev W4 : Dev nD → Valuation τ sig (Elt F) := fun c => StableHlo.after hostOps2 (W3 m ρ c)
abbrev V4 : (c : Dev nD) → (b : Ref sig .tc) → Buf (Elt F) ((c : Thread nD τ).loc b) := fun c b => W4 m ρ c b
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev V5 : (c : Dev nD) → (b : Ref sig .tc) → Buf (Elt F) ((c : Thread nD τ).loc b) := fun c b => W5 m ρ c b
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

abbrev W6 : Dev nD → Valuation τ sig (Elt F) := fun c => StableHlo.after hostOps3 (W5 m ρ c)

abbrev adm : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V4 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m ρ c) ∗ ∃ r, prngReg c r)

set_option backward.isDefEq.respectTransparency.types false in
/-- A region over the thread state: entered with every unscoped buffer at `Wi`, left with them at `Wo`, which has the
    region's arrays as its write-backs leave them and every other buffer as entered. -/
def regOf (p : Fin 3) (kit : Pipeline.LaunchFacts (nD := nD) (τ := τ) cfgs p) (Wi Wo : Dev nD → Valuation τ sig (Elt F))
    (hb : ∀ c, BodyObligation (pdats m ρ p c) (defs₀ (F := F)) Variants.none () Set.univ)
    (hq : ∀ c w, (pdats m ρ p c).q w = fullShare) (hz : ∀ c t, (pdats m ρ p c).owed t = 0)
    (hrec : ∀ c t, (pdats m ρ p c).recorded t = Set.univ)
    (hA : ∀ c w, (pdats m ρ p c).A w = Wi c (Proc.devRef .tc (Pipeline.arrRef (cfgs p).spec w)))
    (hΦi : ∀ c, Pipeline.ΦA (cfgs p).spec c ⊢ (pdats m ρ p c).Φ 0)
    (hΦo : ∀ c, (pdats m ρ p c).Φ (Fin.last (cfgs p).N) ⊢ Pipeline.ΦA (cfgs p).spec c)
    (hF : ∀ c w, (pdats m ρ p c).arrAt w (cfgs p).N = Wo c (Proc.devRef .tc (Pipeline.arrRef (cfgs p).spec w)))
    (hr : ∀ c, ∀ b : Ref sig .tc, b ∉ Finset.univ.image (Pipeline.arrRef (cfgs p).spec) → Wo c (Proc.devRef .tc b) = Wi c (Proc.devRef .tc b)) :
    Pipeline.RegionSeg (pcfgs (F := F)) adm (pdats m ρ) () defs₀ 𝒱₀ L lv p where
  win := kit.win.to₀
  block_pos := kit.block_pos
  stage_whole := kit.stage_whole
  K := PEmpty
  osem k := k.elim
  ho := Pipeline.OwnSemFacts.none _
  hbody c := (hb c).loose
  hwaits := Pipeline.hwaits_of_owed_zero _ _ _ _ L lv p hz
  pre c := iprop(StableHlo.held (c : Thread nD τ) (Pipeline.ucRefs τ sig) (Wi c) ∗ R c)
  post c := iprop(StableHlo.held (c : Thread nD τ) (Pipeline.ucRefs τ sig) (Wo c) ∗ R c)
  X c := iprop(∃ r, prngReg c r)
  Y c := iprop(∃ r, prngReg c r)
  Z c := Pipeline.unscopedRest (Ix := Unit) (Name := ℕ) (U := UR sig nD τ) (Lvl := ℕ) (cfgs p).spec c (fun b => Wi c b)
  hentry c := by
    rw [Pipeline.ownSems0_none]
    have hsplit := Pipeline.arrays_of_unscopedBufs (p := p) (pcfgs (F := F)) adm (pdats m ρ) kit.win kit.arr_whole c
      ((pdats m ρ p c).share_full (hq c)) (fun b => Wi c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [hz c 0]
      icases HO with ⟨%W, HO⟩; iexists W; isplitr; · ipureintro; exact fun _ _ => Or.inl (by rw [hrec c 0]; trivial)
      iexact HO
    isplitl [Hp]; · iexact Hp
    iexact Hrest
  hin c := by
    refine .trans ?_ (hΦi c)
    unfold Pipeline.ΦA
    iintro ⟨Hp, -, Hr⟩
    isplitl [Hr]; · iexact Hr
    iexact Hp
  hout c := by
    rw [Pipeline.ownSems0_none]
    refine (hΦo c).trans ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      kit.win kit.arr_whole c (pdats m ρ) ((pdats m ρ p c).share_full (hq c))
      (fun b => Wi c b) (fun b => Wo c b) ((pdats m ρ p c).arrAt · (cfgs p).N) (hF c) (hr c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [hz c (Fin.last _)]
    icases HO with ⟨%W, -, HO⟩; iexists W; iexact HO

def reg0 := regOf m ρ 0 launch0 (W1 m ρ) (W2 m ρ) (body_obligation0 (V1 m ρ)) (fun _ _ => rfl) (fun _ _ => rfl) (fun _ _ => rfl) (fun _ _ => rfl)
  (hin0 (V1 m ρ)) (hout0 (V1 m ρ)) (hF0 m ρ) (hrest0 m ρ)
def reg1 := regOf m ρ 1 launch1 (W2 m ρ) (W3 m ρ) (body_obligation1 (V2 m ρ)) (fun _ _ => rfl) (fun _ _ => rfl) (fun _ _ => rfl) (fun _ _ => rfl)
  (hin1 (V2 m ρ)) (hout1 (V2 m ρ)) (hF1 m ρ) (hrest1 m ρ)
def reg2 := regOf m ρ 2 launch2 (W4 m ρ) (W5 m ρ) (body_obligation2 (V4 m ρ)) (fun _ _ => rfl) (fun _ _ => rfl) (fun _ _ => rfl) (fun _ _ => rfl)
  (hin2 (V4 m ρ)) (hout2 (V4 m ρ)) (hF2 m ρ) (hrest2 m ρ)

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)),
    .region (reg2 m ρ),
    .host (hseg hostOps3 hostOps3_sub hostOps3_fresh (W5 m ρ)) ]
theorem main_run (c : Dev nD) : main (F := F) c = Pipeline.Seg.run (segs m ρ) := (main_chain c).trans (by chain_rfl)

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      show iprop(StableHlo.held (c : Thread nD τ) (Pipeline.ucRefs τ sig) (W6 m ρ c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

end Cert.Kernel.Fr

end
-- ==== Proof.K.Frame.lean ====
import proofs.«148324_j39651138077344_1_alg».proof.Proof.K.Run
import proofs.«148324_j39651138077344_1_alg».proof.Proof.Gen.Kernel.Regions

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No item of the program writes an argument: the contents at an argument's buffer walk back, item by item, to the launch memory. -/
theorem W6_main_arg0 (c : Dev nD) : W6 m ρ c (Proc.devRef .tc main_arg0) = m ((c : Thread nD τ).loc main_arg0) :=
  (StableHlo.after_of_writes_sub hostOps3 _ hostOps3_writes (by decide)).trans <| (W5_of_ne m ρ c main_arg0 (by decide)).trans <| (StableHlo.after_of_writes_sub hostOps2 _ hostOps2_writes (by decide)).trans <|
    (W3_of_ne m ρ c main_arg0 (by decide)).trans <| ((W2_arr m ρ c 0).trans (((dat0 (V1 m ρ) c).arrAt_in 0 rfl _).trans (A_eq0 (V1 m ρ) c 0))).trans <| (StableHlo.after_of_writes_sub hostOps0 _ hostOps0_writes (by decide))

theorem W6_main_arg1 (c : Dev nD) : W6 m ρ c (Proc.devRef .tc main_arg1) = m ((c : Thread nD τ).loc main_arg1) :=
  (StableHlo.after_of_writes_sub hostOps3 _ hostOps3_writes (by decide)).trans <| (W5_of_ne m ρ c main_arg1 (by decide)).trans <| (StableHlo.after_of_writes_sub hostOps2 _ hostOps2_writes (by decide)).trans <|
    ((W3_arr m ρ c 0).trans (((dat1 (V2 m ρ) c).arrAt_in 0 rfl _).trans (A_eq1 (V2 m ρ) c 0))).trans <| (W2_of_ne m ρ c main_arg1 (by decide)).trans <| (StableHlo.after_of_writes_sub hostOps0 _ hostOps0_writes (by decide))

theorem W6_main_arg2 (c : Dev nD) : W6 m ρ c (Proc.devRef .tc main_arg2) = m ((c : Thread nD τ).loc main_arg2) :=
  (StableHlo.after_of_writes_sub hostOps3 _ hostOps3_writes (by decide)).trans <| (W5_of_ne m ρ c main_arg2 (by decide)).trans <| (StableHlo.after_of_writes_sub hostOps2 _ hostOps2_writes (by decide)).trans <|
    ((W3_arr m ρ c 1).trans (((dat1 (V2 m ρ) c).arrAt_in 1 rfl _).trans (A_eq1 (V2 m ρ) c 1))).trans <| ((W2_arr m ρ c 1).trans (((dat0 (V1 m ρ) c).arrAt_in 1 rfl _).trans (A_eq0 (V1 m ρ) c 1))).trans <| (StableHlo.after_of_writes_sub hostOps0 _ hostOps0_writes (by decide))

theorem W6_main_arg3 (c : Dev nD) : W6 m ρ c (Proc.devRef .tc main_arg3) = m ((c : Thread nD τ).loc main_arg3) :=
  (StableHlo.after_of_writes_sub hostOps3 _ hostOps3_writes (by decide)).trans <| (W5_of_ne m ρ c main_arg3 (by decide)).trans <| (StableHlo.after_of_writes_sub hostOps2 _ hostOps2_writes (by decide)).trans <|
    (W3_of_ne m ρ c main_arg3 (by decide)).trans <| (W2_of_ne m ρ c main_arg3 (by decide)).trans <| (StableHlo.after_of_writes_sub hostOps0 _ hostOps0_writes (by decide))

theorem run_result : θ_run defs (onTc (τ := τ) (main (F := F))) ⟨m, fun _ => 0, ρ⟩ (fun r => ∀ c : Dev nD,
      r.2.mem ((c.tc : Thread nD τ).loc main_v5) = W6 m ρ c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨h c _ (mem_uc main_v5 (by decide)),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c)⟩) (run_all m ρ)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_result m ρ)

end Cert.Kernel.Fr

end
-- ==== Proof.KI.R0Base.lean ====
import proofs.«148324_j39651138077344_1_alg».proof.Proof.Gen.KernelIdeal.Launch
import proofs.«148324_j39651138077344_1_alg».proof.Proof.Gen.KernelIdeal.Skeleton
import proofs.«148324_j39651138077344_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
end

abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_4 : ∀ t : Fin cfg0.N, cond0_1 (grid0.coords t) → cfg0.idle 4 (grid0.coords t) = false := by decide +kernel

abbrev VO0_3 : View sig .tc .vmem S1024x1024 .bf16 := (Memref.whole cc0_stg3_0 : Memref sig .tc .vmem S1024x1024 .bf16).view
abbrev VO0_4 : View sig .tc .vmem S1024x1 .f32 := (Memref.whole cc0_stg4_0 : Memref sig .tc .vmem S1024x1 .f32).view
abbrev ms0_0 (t : Fin cfg0.N) : Memref sig .tc .vmem S1024x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1 .f32 := win0_4.stage (cfg0.slots t 4)
abbrev hs0_4 (t : Fin cfg0.N) : (ms0_4 t).IsWhole := hstage0_4 ((cfg0.slots t 4).cast nbuf0_4)
abbrev scM0_0 : Memref sig .tc .vmem S1024x1024 .f32 := Memref.whole cc0_scratch0
abbrev VS0_0 : View sig .tc .vmem S1024x1024 .f32 := scM0_0.view

abbrev others0 (c : Dev nD) : sProp 𝕄 := Pipeline.scopedRestBut spec0 c [cc0_scratch0]

/-- The region's own scoped buffers with the accumulator split off, owned at some contents. -/
theorem PhiA0_eq (c : Dev nD) :
    (Pipeline.ΦA spec0 c : sProp 𝕄)
      = iprop(iprop((∃ d, owns (c : Thread nD τ) scM0_0 fullShare d) ∗ others0 c) ∗ (∃ r, prngReg c r)) := by
  unfold Pipeline.ΦA
  rw [Pipeline.scopedRest_split_of_list spec0 c [cc0_scratch0] (by decide) (by decide)]
  simp only [bigSepL_singleton, scM0_0, owns_whole]; try rfl

set_option genInjectivity false in
set_option genSizeOfSpec false in
/-- What the body runs on at a grid point: its six whole buffers and the three blocks it loads. -/
structure Pt0 (F : FTy → Type) where
  c : Dev nD
  i : grid0.Coords
  a2 : Memref sig .tc .vmem S1024x512 .f32
  h2 : a2.IsWhole
  a3 : Memref sig .tc .vmem S512x1024 .f32
  h3 : a3.IsWhole
  a4 : Memref sig .tc .vmem S1x1024 .f32
  h4 : a4.IsWhole
  a5 : Memref sig .tc .vmem S1024x1024 .bf16
  h5 : a5.IsWhole
  a6 : Memref sig .tc .vmem S1024x1 .f32
  h6 : a6.IsWhole
  a7 : Memref sig .tc .vmem S1024x1024 .f32
  h7 : a7.IsWhole
  x0 : Vec F S1024x512 .f32
  x1 : Vec F S512x1024 .f32
  x2 : Vec F S1x1024 .f32

end Cert.KernelIdeal.Fr

end
-- ==== Proof.KI.R0RunA.lean ====
import proofs.«148324_j39651138077344_1_alg».proof.Proof.KI.R0Base

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_A (c : Dev nD) (i : grid0.Coords) (arg2 : Memref sig .tc .vmem S1024x512 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1024x1 .f32) (harg6 : arg6.IsWhole) (arg7 : Memref sig .tc .vmem S1024x1024 .f32) (harg7 : arg7.IsWhole) (hc0 : cond0_0 i) (hc1 : ¬cond0_1 i)
    (x0 : Vec F S1024x512 .f32) (x1 : Vec F S512x1024 .f32) (x2 : Vec F S1x1024 .f32) :
    Σ' (L3 : List (View.Piece (Elt F) S1024x1024 .bf16)) (L4 : List (View.Piece (Elt F) S1024x1 .f32)), { LS0 : List (View.Piece (Elt F) S1024x1024 .f32) //
      ∀ (xi3 : Vec F S1024x1024 .bf16) (xi4 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__linear_rownorm_kernel i arg2 harg2 arg3 harg3 arg4 harg4 arg5 harg5 arg6 harg6 arg7 harg7) K } := by
  refine ⟨[], [], ?_, fun xi3 xi4 E K => ?run⟩
  case run =>
    simp only [cc0__linear_rownorm_kernel_eq_skeleton]; unfold cc0__linear_rownorm_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Fr

end
-- ==== Proof.KI.R0RunB.lean ====
import proofs.«148324_j39651138077344_1_alg».proof.Proof.KI.R0Base

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_B (c : Dev nD) (i : grid0.Coords) (arg2 : Memref sig .tc .vmem S1024x512 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1024x1 .f32) (harg6 : arg6.IsWhole) (arg7 : Memref sig .tc .vmem S1024x1024 .f32) (harg7 : arg7.IsWhole) (hc0 : ¬cond0_0 i) (hc1 : ¬cond0_1 i)
    (x0 : Vec F S1024x512 .f32) (x1 : Vec F S512x1024 .f32) (x2 : Vec F S1x1024 .f32) (xs0 : Vec F S1024x1024 .f32) :
    Σ' (L3 : List (View.Piece (Elt F) S1024x1024 .bf16)) (L4 : List (View.Piece (Elt F) S1024x1 .f32)), { LS0 : List (View.Piece (Elt F) S1024x1024 .f32) //
      ∀ (xi3 : Vec F S1024x1024 .bf16) (xi4 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__linear_rownorm_kernel i arg2 harg2 arg3 harg3 arg4 harg4 arg5 harg5 arg6 harg6 arg7 harg7) K } := by
  refine ⟨[], [], ?_, fun xi3 xi4 E K => ?run⟩
  case run =>
    simp only [cc0__linear_rownorm_kernel_eq_skeleton]; unfold cc0__linear_rownorm_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Fr

end
-- ==== Proof.KI.R0RunC.lean ====
import proofs.«148324_j39651138077344_1_alg».proof.Proof.KI.R0Base

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_C (c : Dev nD) (i : grid0.Coords) (arg2 : Memref sig .tc .vmem S1024x512 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1024x1 .f32) (harg6 : arg6.IsWhole) (arg7 : Memref sig .tc .vmem S1024x1024 .f32) (harg7 : arg7.IsWhole) (hc0 : ¬cond0_0 i) (hc1 : cond0_1 i)
    (x0 : Vec F S1024x512 .f32) (x1 : Vec F S512x1024 .f32) (x2 : Vec F S1x1024 .f32) (xs0 : Vec F S1024x1024 .f32) :
    Σ' (L3 : List (View.Piece (Elt F) S1024x1024 .bf16)) (L4 : List (View.Piece (Elt F) S1024x1 .f32)), { LS0 : List (View.Piece (Elt F) S1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0__linear_rownorm_kernel i arg2 harg2 arg3 harg3 arg4 harg4 arg5 harg5 arg6 harg6 arg7 harg7) K } := by
  refine ⟨?_, ?_, ?_, fun E K => ?run⟩
  case run =>
    simp only [cc0__linear_rownorm_kernel_eq_skeleton]; unfold cc0__linear_rownorm_kernel_skel
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    iexists _; iexact HS0

end Cert.KernelIdeal.Fr

end
-- ==== Proof.KI.R0Dat.lean ====
import proofs.«148324_j39651138077344_1_alg».proof.Proof.KI.R0RunA
import proofs.«148324_j39651138077344_1_alg».proof.Proof.KI.R0RunB
import proofs.«148324_j39651138077344_1_alg».proof.Proof.KI.R0RunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The two result buffers and the accumulator, read back after a list of stores into each. -/
def rd0 (L3 : List (View.Piece (Elt F) S1024x1024 .bf16)) (L4 : List (View.Piece (Elt F) S1024x1 .f32)) (LS : List (View.Piece (Elt F) S1024x1024 .f32)) :
    Vec F S1024x1024 .bf16 × Vec F S1024x1 .f32 × Vec F S1024x1024 .f32 :=
  (VO0_3.read (Elt F) (VO0_3.writes (Elt F) VO0_3.junk L3), VO0_4.read (Elt F) (VO0_4.writes (Elt F) VO0_4.junk L4), VS0_0.read (Elt F) (VS0_0.writes (Elt F) VS0_0.junk LS))

section
variable (P : Pt0 F) (xs : Vec F S1024x1024 .f32)

def Pt0.runA (hc0 : cond0_0 P.i) (hc1 : ¬cond0_1 P.i) :=
  kernelRun0_A P.c P.i P.a2 P.h2 P.a3 P.h3 P.a4 P.h4 P.a5 P.h5 P.a6 P.h6 P.a7 P.h7 hc0 hc1 P.x0 P.x1 P.x2
def Pt0.runB (hc0 : ¬cond0_0 P.i) (hc1 : ¬cond0_1 P.i) :=
  kernelRun0_B P.c P.i P.a2 P.h2 P.a3 P.h3 P.a4 P.h4 P.a5 P.h5 P.a6 P.h6 P.a7 P.h7 hc0 hc1 P.x0 P.x1 P.x2 xs
def Pt0.runC (hc0 : ¬cond0_0 P.i) (hc1 : cond0_1 P.i) :=
  kernelRun0_C P.c P.i P.a2 P.h2 P.a3 P.h3 P.a4 P.h4 P.a5 P.h5 P.a6 P.h6 P.a7 P.h7 hc0 hc1 P.x0 P.x1 P.x2 xs

def Pt0.outA (hc0 : cond0_0 P.i) (hc1 : ¬cond0_1 P.i) := rd0 (P.runA hc0 hc1).1 (P.runA hc0 hc1).2.1 (P.runA hc0 hc1).2.2.1
def Pt0.outB (hc0 : ¬cond0_0 P.i) (hc1 : ¬cond0_1 P.i) := rd0 (P.runB xs hc0 hc1).1 (P.runB xs hc0 hc1).2.1 (P.runB xs hc0 hc1).2.2.1
def Pt0.outC (hc0 : ¬cond0_0 P.i) (hc1 : cond0_1 P.i) := rd0 (P.runC xs hc0 hc1).1 (P.runC xs hc0 hc1).2.1 (P.runC xs hc0 hc1).2.2.1

/-- Every case stores the accumulator whole, and the last case both result blocks: the stored rectangles tile the buffer. -/
theorem Pt0.scoverA (hc0 : cond0_0 P.i) (hc1 : ¬cond0_1 P.i) (y : S1024x1024.Idx) : ∃ pc ∈ (P.runA hc0 hc1).2.2.1, y ∈ pc.1.set :=
  View.cover_of_tiledL (P.runA hc0 hc1).2.2.1 S1024x1024.size (by sl_kernel_rfl) y
theorem Pt0.scoverB (hc0 : ¬cond0_0 P.i) (hc1 : ¬cond0_1 P.i) (y : S1024x1024.Idx) : ∃ pc ∈ (P.runB xs hc0 hc1).2.2.1, y ∈ pc.1.set :=
  View.cover_of_tiledL (P.runB xs hc0 hc1).2.2.1 S1024x1024.size (by sl_kernel_rfl) y
theorem Pt0.scoverC (hc0 : ¬cond0_0 P.i) (hc1 : cond0_1 P.i) (y : S1024x1024.Idx) : ∃ pc ∈ (P.runC xs hc0 hc1).2.2.1, y ∈ pc.1.set :=
  View.cover_of_tiledL (P.runC xs hc0 hc1).2.2.1 S1024x1024.size (by sl_kernel_rfl) y
theorem Pt0.coverC3 (hc0 : ¬cond0_0 P.i) (hc1 : cond0_1 P.i) (y : S1024x1024.Idx) : ∃ pc ∈ (P.runC xs hc0 hc1).1, y ∈ pc.1.set :=
  View.cover_of_tiledL (P.runC xs hc0 hc1).1 S1024x1024.size (by sl_kernel_rfl) y
theorem Pt0.coverC4 (hc0 : ¬cond0_0 P.i) (hc1 : cond0_1 P.i) (y : S1024x1.Idx) : ∃ pc ∈ (P.runC xs hc0 hc1).2.1, y ∈ pc.1.set :=
  View.cover_of_tiledL (P.runC xs hc0 hc1).2.1 S1024x1.size (by sl_kernel_rfl) y
end

section
variable (V : (c : Dev nD) → (b : Ref sig .tc) → Buf (Elt F) ((c : Thread nD τ).loc b))

def pt0 (c : Dev nD) (t : Fin cfg0.N) : Pt0 F :=
  ⟨c, grid0.coords t, ms0_0 t, hs0_0 t, ms0_1 t, hs0_1 t, ms0_2 t, hs0_2 t, ms0_3 t, hs0_3 t, ms0_4 t, hs0_4 t, scM0_0, Memref.isWhole_whole _, iblk0 V c 0 t, iblk0 V c 1 t, iblk0 V c 2 t⟩

def outA0 (c : Dev nD) (t : Fin cfg0.N) (h0 : t.val % 4 = 0) (h1 : ¬t.val % 4 = 3) :=
  (pt0 V c t).outA ((hcond0_0 t).mpr h0) (fun h => h1 ((hcond0_1 t).mp h))
def outB0 (c : Dev nD) (t : Fin cfg0.N) (h0 : ¬t.val % 4 = 0) (h1 : ¬t.val % 4 = 3) (xs : Vec F S1024x1024 .f32) :=
  (pt0 V c t).outB xs (fun h => h0 ((hcond0_0 t).mp h)) (fun h => h1 ((hcond0_1 t).mp h))
def outC0 (c : Dev nD) (t : Fin cfg0.N) (h0 : ¬t.val % 4 = 0) (h1 : t.val % 4 = 3) (xs : Vec F S1024x1024 .f32) :=
  (pt0 V c t).outC xs (fun h => h0 ((hcond0_0 t).mp h)) ((hcond0_1 t).mpr h1)

/-- (features block, squared-norms block, accumulator) after the body at position `n`: the case `n % 4` selects, run from what the position before left in the accumulator. -/
def outsAt0 (c : Dev nD) : (n : ℕ) → n < cfg0.N → Vec F S1024x1024 .bf16 × Vec F S1024x1 .f32 × Vec F S1024x1024 .f32
  | 0, hn => outA0 V c ⟨0, hn⟩ (Nat.zero_mod _) (by show ¬0 % 4 = 3; decide)
  | n + 1, hn =>
    if h0 : (n + 1) % 4 = 0 then outA0 V c ⟨n + 1, hn⟩ h0 (by show ¬(n + 1) % 4 = 3; omega)
    else if h1 : (n + 1) % 4 = 3 then outC0 V c ⟨n + 1, hn⟩ h0 h1 (outsAt0 c n (Nat.lt_of_succ_lt hn)).2.2
    else outB0 V c ⟨n + 1, hn⟩ h0 h1 (outsAt0 c n (Nat.lt_of_succ_lt hn)).2.2

abbrev prev0 (c : Dev nD) (t : Fin cfg0.N) : Vec F S1024x1024 .f32 := (outsAt0 V c (t.val - 1) (Nat.lt_of_le_of_lt (Nat.sub_le _ _) t.isLt)).2.2

theorem outsAt0_A (c : Dev nD) (t : Fin cfg0.N) (h0 : t.val % 4 = 0) (h1 : ¬t.val % 4 = 3) :
    outsAt0 V c t.val t.isLt = outA0 V c t h0 h1 := by
  obtain ⟨n, hn⟩ := t
  cases n with
  | zero => rfl
  | succ n => exact dif_pos h0

theorem outsAt0_B (c : Dev nD) (t : Fin cfg0.N) (h0 : ¬t.val % 4 = 0) (h1 : ¬t.val % 4 = 3) :
    outsAt0 V c t.val t.isLt = outB0 V c t h0 h1 (prev0 V c t) := by
  obtain ⟨n, hn⟩ := t
  cases n with
  | zero => exact absurd (Nat.zero_mod _) h0
  | succ n => exact (dif_neg h0).trans (dif_neg h1)

theorem outsAt0_C (c : Dev nD) (t : Fin cfg0.N) (h0 : ¬t.val % 4 = 0) (h1 : t.val % 4 = 3) :
    outsAt0 V c t.val t.isLt = outC0 V c t h0 h1 (prev0 V c t) := by
  obtain ⟨n, hn⟩ := t
  cases n with
  | zero => exact absurd (Nat.zero_mod _) h0
  | succ n => exact (dif_neg h0).trans (dif_pos h1)

/-- Before position `n` the accumulator holds anything at the start, afterwards what the position before left. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2.2) ∗ others0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0_0 fullShare ((outsAt0 V c n hn).2.2) ∗ others0 c) ∗ (∃ r, prngReg c r)) := rfl
theorem PhiS0_pos (c : Dev nD) (n : ℕ) (h : n ≤ cfg0.N) (hz : n ≠ 0) :
    PhiS0 V c n h = iprop(iprop(owns (c : Thread nD τ) scM0_0 fullShare ((outsAt0 V c (n - 1) (by omega)).2.2) ∗ others0 c) ∗ (∃ r, prngReg c r)) := by
  cases n with
  | zero => exact absurd rfl hz
  | succ n => rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
    | ⟨4, _⟩ => (outsAt0 V c t.val t.isLt).2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem after0_4 (c : Dev nD) (t : Fin cfg0.N) : (dat0 V c).after 4 t = (outsAt0 V c t.val t.isLt).2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, Hoth⟩, Hg⟩
  isplitl [HS0 Hoth]
  · isplitl [HS0]
    · iexists _; iexact HS0
    iexact Hoth
  iexact Hg

/-- At every position the accumulator is owned at some contents. -/
theorem Phi_any0 (c : Dev nD) (t : Fin (cfg0.N + 1)) : (dat0 V c).Φ t ⊢ Pipeline.ΦA spec0 c := by
  by_cases ht : t.val = 0
  · rw [show (dat0 V c).Φ t = PhiS0 V c t.val (Nat.le_of_lt_succ t.isLt) from rfl, PhiS0_zero V c _ _ ht]
  · exact Phi_out0 V c t ht

theorem hout0 (c : Dev nD) : (dat0 V c).Φ (Fin.last cfg0.N) ⊢ Pipeline.ΦA spec0 c :=
  Phi_out0 V c _ (by rw [Fin.val_last]; have : cfg0.N = 16 := N_0; omega)

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

theorem leaves0_0 (c : Dev nD) (t : Fin cfg0.N) : (dat0 V c).leavesExact 0 t = owns (c : Thread nD τ) (ms0_0 t) fullShare (iblk0 V c 0 t) := by
  unfold Dat.leavesExact; rw [liveAt0_0 t, after0_0]
theorem leaves0_1 (c : Dev nD) (t : Fin cfg0.N) : (dat0 V c).leavesExact 1 t = owns (c : Thread nD τ) (ms0_1 t) fullShare (iblk0 V c 1 t) := by
  unfold Dat.leavesExact; rw [liveAt0_1 t, after0_1]
theorem leaves0_2 (c : Dev nD) (t : Fin cfg0.N) : (dat0 V c).leavesExact 2 t = owns (c : Thread nD τ) (ms0_2 t) fullShare (iblk0 V c 2 t) := by
  unfold Dat.leavesExact; rw [liveAt0_2 t, after0_2]

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  have hN : t.val < 16 := lt_of_lt_of_eq t.isLt (show cfg0.N = 16 from N_0)
  rw [leaves0_0, leaves0_1, leaves0_2]
  by_cases h1 : t.val % 4 = 3
  · have h0 : ¬t.val % 4 = 0 := by omega
    have hz : t.val ≠ 0 := by omega
    rw [show (dat0 V c).leavesExact 3 t = owns (c : Thread nD τ) (ms0_3 t) fullShare ((dat0 V c).after 3 t) from by
      unfold Dat.leavesExact; rw [liveAt0_3 t ((hcond0_1 t).mpr h1)], after0_3]
    rw [show (dat0 V c).leavesExact 4 t = owns (c : Thread nD τ) (ms0_4 t) fullShare ((dat0 V c).after 4 t) from by
      unfold Dat.leavesExact; rw [liveAt0_4 t ((hcond0_1 t).mpr h1)], after0_4]
    rw [outsAt0_C V c t h0 h1]
    dsimp only [outC0, Pt0.outC, rd0]
    rw [PhiS0_castSucc V c t, PhiS0_pos V c _ _ hz]
    iintro ⟨⟨⟨HS0, Hoth⟩, Hg⟩, Ho, ⟨%d0, H0⟩, ⟨%d1, H1⟩, ⟨%d2, H2⟩, ⟨%d3, H3⟩, ⟨%d4, H4⟩⟩
    iapply (((pt0 V c t).runC _ (fun h => h0 ((hcond0_0 t).mp h)) ((hcond0_1 t).mpr h1)).2.2.2 Set.univ _)
    isplitl [H0]; · iexact H0
    isplitl [H1]; · iexact H1
    isplitl [H2]; · iexact H2
    isplitl [H3]; · iexists _; iexact H3
    isplitl [H4]; · iexists _; iexact H4
    isplitl [HS0]; · iexact HS0
    iintro ⟨H0, H1, H2, ⟨%e3, H3⟩, ⟨%e4, H4⟩, ⟨%es0, HS0⟩⟩
    isplitl [HS0 Hoth Hg]
    · isplitl [HS0 Hoth]
      · isplitl [HS0]
        · unfold owns; iexists _; isplitr
          swap; · iexact HS0
          ipureintro; exact View.read_writes_of_cover _ _ _ _ _ ((pt0 V c t).scoverC _ _ _)
        iexact Hoth
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ ((pt0 V c t).coverC3 _ _ _)
    unfold owns; iexists _; isplitr
    swap; · iexact H4
    ipureintro; exact View.read_writes_of_cover _ _ _ _ _ ((pt0 V c t).coverC4 _ _ _)
  · rw [Dat.leavesExact_idle (dat0 V c) 3 t (idleAt0_3 t (fun h => h1 ((hcond0_1 t).mp h))) (noFlush0_3 t (fun h => h1 ((hcond0_1 t).mp h)))]
    rw [Dat.leavesExact_idle (dat0 V c) 4 t (idleAt0_4 t (fun h => h1 ((hcond0_1 t).mp h))) (noFlush0_4 t (fun h => h1 ((hcond0_1 t).mp h)))]
    by_cases h0 : t.val % 4 = 0
    · rw [outsAt0_A V c t h0 h1]
      dsimp only [outA0, Pt0.outA, rd0]
      refine (sep_mono (Phi_any0 V c t.castSucc) .rfl).trans ?_
      rw [PhiA0_eq]
      iintro ⟨⟨⟨HS0, Hoth⟩, Hg⟩, Ho, ⟨%d0, H0⟩, ⟨%d1, H1⟩, ⟨%d2, H2⟩, ⟨%d3, H3⟩, ⟨%d4, H4⟩⟩
      iapply (((pt0 V c t).runA ((hcond0_0 t).mpr h0) (fun h => h1 ((hcond0_1 t).mp h))).2.2.2 _ _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ ((pt0 V c t).scoverA _ _)
          iexact Hoth
        iexact Hg
      isplitl [Ho]; · iexact Ho
      isplitl [H0]; · iexact H0
      isplitl [H1]; · iexact H1
      isplitl [H2]; · iexact H2
      isplitl [H3]; · iexists _; iexact H3
      iexists _; iexact H4
    · have hz : t.val ≠ 0 := by omega
      rw [outsAt0_B V c t h0 h1]
      dsimp only [outB0, Pt0.outB, rd0]
      rw [PhiS0_castSucc V c t, PhiS0_pos V c _ _ hz]
      iintro ⟨⟨⟨HS0, Hoth⟩, Hg⟩, Ho, ⟨%d0, H0⟩, ⟨%d1, H1⟩, ⟨%d2, H2⟩, ⟨%d3, H3⟩, ⟨%d4, H4⟩⟩
      iapply (((pt0 V c t).runB _ (fun h => h0 ((hcond0_0 t).mp h)) (fun h => h1 ((hcond0_1 t).mp h))).2.2.2 _ _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ ((pt0 V c t).scoverB _ _ _)
          iexact Hoth
        iexact Hg
      isplitl [Ho]; · iexact Ho
      isplitl [H0]; · iexact H0
      isplitl [H1]; · iexact H1
      isplitl [H2]; · iexact H2
      isplitl [H3]; · iexists _; iexact H3
      iexists _; iexact H4

theorem body_obligation0 (c : Dev nD) : BodyObligation (dat0 (F := F) V c) (defs₀ (F := F)) Variants.none () Set.univ := fun t => by
  rw [bigSep_W0, bigSep_W0]
  exact sound_body0 V c t

end

end Cert.KernelIdeal.Fr

end
-- ==== Proof.KI.R1Base.lean ====
import proofs.«148324_j39651138077344_1_alg».proof.Proof.Gen.KernelIdeal.Launch
import proofs.«148324_j39651138077344_1_alg».proof.Proof.Gen.KernelIdeal.Skeleton
import proofs.«148324_j39651138077344_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
end

abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
theorem liveAt1_4 : ∀ t : Fin cfg1.N, cond1_1 (grid1.coords t) → cfg1.idle 4 (grid1.coords t) = false := by decide +kernel

abbrev VO1_3 : View sig .tc .vmem S1024x1024 .bf16 := (Memref.whole cc1_stg3_0 : Memref sig .tc .vmem S1024x1024 .bf16).view
abbrev VO1_4 : View sig .tc .vmem S1024x1 .f32 := (Memref.whole cc1_stg4_0 : Memref sig .tc .vmem S1024x1 .f32).view
abbrev ms1_0 (t : Fin cfg1.N) : Memref sig .tc .vmem S1024x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x1 .f32 := win1_4.stage (cfg1.slots t 4)
abbrev hs1_4 (t : Fin cfg1.N) : (ms1_4 t).IsWhole := hstage1_4 ((cfg1.slots t 4).cast nbuf1_4)
abbrev scM1_0 : Memref sig .tc .vmem S1024x1024 .f32 := Memref.whole cc1_scratch0
abbrev VS1_0 : View sig .tc .vmem S1024x1024 .f32 := scM1_0.view

abbrev others1 (c : Dev nD) : sProp 𝕄 := Pipeline.scopedRestBut spec1 c [cc1_scratch0]

/-- The region's own scoped buffers with the accumulator split off, owned at some contents. -/
theorem PhiA1_eq (c : Dev nD) :
    (Pipeline.ΦA spec1 c : sProp 𝕄)
      = iprop(iprop((∃ d, owns (c : Thread nD τ) scM1_0 fullShare d) ∗ others1 c) ∗ (∃ r, prngReg c r)) := by
  unfold Pipeline.ΦA
  rw [Pipeline.scopedRest_split_of_list spec1 c [cc1_scratch0] (by decide) (by decide)]
  simp only [bigSepL_singleton, scM1_0, owns_whole]; try rfl

set_option genInjectivity false in
set_option genSizeOfSpec false in
/-- What the body runs on at a grid point: its six whole buffers and the three blocks it loads. -/
structure Pt1 (F : FTy → Type) where
  c : Dev nD
  i : grid1.Coords
  a2 : Memref sig .tc .vmem S1024x512 .f32
  h2 : a2.IsWhole
  a3 : Memref sig .tc .vmem S512x1024 .f32
  h3 : a3.IsWhole
  a4 : Memref sig .tc .vmem S1x1024 .f32
  h4 : a4.IsWhole
  a5 : Memref sig .tc .vmem S1024x1024 .bf16
  h5 : a5.IsWhole
  a6 : Memref sig .tc .vmem S1024x1 .f32
  h6 : a6.IsWhole
  a7 : Memref sig .tc .vmem S1024x1024 .f32
  h7 : a7.IsWhole
  x0 : Vec F S1024x512 .f32
  x1 : Vec F S512x1024 .f32
  x2 : Vec F S1x1024 .f32

end Cert.KernelIdeal.Fr

end
-- ==== Proof.KI.R1RunA.lean ====
import proofs.«148324_j39651138077344_1_alg».proof.Proof.KI.R1Base

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_A (c : Dev nD) (i : grid1.Coords) (arg2 : Memref sig .tc .vmem S1024x512 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1024x1 .f32) (harg6 : arg6.IsWhole) (arg7 : Memref sig .tc .vmem S1024x1024 .f32) (harg7 : arg7.IsWhole) (hc0 : cond1_0 i) (hc1 : ¬cond1_1 i)
    (x0 : Vec F S1024x512 .f32) (x1 : Vec F S512x1024 .f32) (x2 : Vec F S1x1024 .f32) :
    Σ' (L3 : List (View.Piece (Elt F) S1024x1024 .bf16)) (L4 : List (View.Piece (Elt F) S1024x1 .f32)), { LS0 : List (View.Piece (Elt F) S1024x1024 .f32) //
      ∀ (xi3 : Vec F S1024x1024 .bf16) (xi4 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1__linear_rownorm_kernel i arg2 harg2 arg3 harg3 arg4 harg4 arg5 harg5 arg6 harg6 arg7 harg7) K } := by
  refine ⟨[], [], ?_, fun xi3 xi4 E K => ?run⟩
  case run =>
    simp only [cc1__linear_rownorm_kernel_eq_skeleton]; unfold cc1__linear_rownorm_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Fr

end
-- ==== Proof.KI.R1RunB.lean ====
import proofs.«148324_j39651138077344_1_alg».proof.Proof.KI.R1Base

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_B (c : Dev nD) (i : grid1.Coords) (arg2 : Memref sig .tc .vmem S1024x512 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1024x1 .f32) (harg6 : arg6.IsWhole) (arg7 : Memref sig .tc .vmem S1024x1024 .f32) (harg7 : arg7.IsWhole) (hc0 : ¬cond1_0 i) (hc1 : ¬cond1_1 i)
    (x0 : Vec F S1024x512 .f32) (x1 : Vec F S512x1024 .f32) (x2 : Vec F S1x1024 .f32) (xs0 : Vec F S1024x1024 .f32) :
    Σ' (L3 : List (View.Piece (Elt F) S1024x1024 .bf16)) (L4 : List (View.Piece (Elt F) S1024x1 .f32)), { LS0 : List (View.Piece (Elt F) S1024x1024 .f32) //
      ∀ (xi3 : Vec F S1024x1024 .bf16) (xi4 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1__linear_rownorm_kernel i arg2 harg2 arg3 harg3 arg4 harg4 arg5 harg5 arg6 harg6 arg7 harg7) K } := by
  refine ⟨[], [], ?_, fun xi3 xi4 E K => ?run⟩
  case run =>
    simp only [cc1__linear_rownorm_kernel_eq_skeleton]; unfold cc1__linear_rownorm_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Fr

end
-- ==== Proof.KI.R1RunC.lean ====
import proofs.«148324_j39651138077344_1_alg».proof.Proof.KI.R1Base

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_C (c : Dev nD) (i : grid1.Coords) (arg2 : Memref sig .tc .vmem S1024x512 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1024x1 .f32) (harg6 : arg6.IsWhole) (arg7 : Memref sig .tc .vmem S1024x1024 .f32) (harg7 : arg7.IsWhole) (hc0 : ¬cond1_0 i) (hc1 : cond1_1 i)
    (x0 : Vec F S1024x512 .f32) (x1 : Vec F S512x1024 .f32) (x2 : Vec F S1x1024 .f32) (xs0 : Vec F S1024x1024 .f32) :
    Σ' (L3 : List (View.Piece (Elt F) S1024x1024 .bf16)) (L4 : List (View.Piece (Elt F) S1024x1 .f32)), { LS0 : List (View.Piece (Elt F) S1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc1__linear_rownorm_kernel i arg2 harg2 arg3 harg3 arg4 harg4 arg5 harg5 arg6 harg6 arg7 harg7) K } := by
  refine ⟨?_, ?_, ?_, fun E K => ?run⟩
  case run =>
    simp only [cc1__linear_rownorm_kernel_eq_skeleton]; unfold cc1__linear_rownorm_kernel_skel
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    iexists _; iexact HS0

end Cert.KernelIdeal.Fr

end
-- ==== Proof.KI.R1Dat.lean ====
import proofs.«148324_j39651138077344_1_alg».proof.Proof.KI.R1RunA
import proofs.«148324_j39651138077344_1_alg».proof.Proof.KI.R1RunB
import proofs.«148324_j39651138077344_1_alg».proof.Proof.KI.R1RunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The two result buffers and the accumulator, read back after a list of stores into each. -/
def rd1 (L3 : List (View.Piece (Elt F) S1024x1024 .bf16)) (L4 : List (View.Piece (Elt F) S1024x1 .f32)) (LS : List (View.Piece (Elt F) S1024x1024 .f32)) :
    Vec F S1024x1024 .bf16 × Vec F S1024x1 .f32 × Vec F S1024x1024 .f32 :=
  (VO1_3.read (Elt F) (VO1_3.writes (Elt F) VO1_3.junk L3), VO1_4.read (Elt F) (VO1_4.writes (Elt F) VO1_4.junk L4), VS1_0.read (Elt F) (VS1_0.writes (Elt F) VS1_0.junk LS))

section
variable (P : Pt1 F) (xs : Vec F S1024x1024 .f32)

def Pt1.runA (hc0 : cond1_0 P.i) (hc1 : ¬cond1_1 P.i) :=
  kernelRun1_A P.c P.i P.a2 P.h2 P.a3 P.h3 P.a4 P.h4 P.a5 P.h5 P.a6 P.h6 P.a7 P.h7 hc0 hc1 P.x0 P.x1 P.x2
def Pt1.runB (hc0 : ¬cond1_0 P.i) (hc1 : ¬cond1_1 P.i) :=
  kernelRun1_B P.c P.i P.a2 P.h2 P.a3 P.h3 P.a4 P.h4 P.a5 P.h5 P.a6 P.h6 P.a7 P.h7 hc0 hc1 P.x0 P.x1 P.x2 xs
def Pt1.runC (hc0 : ¬cond1_0 P.i) (hc1 : cond1_1 P.i) :=
  kernelRun1_C P.c P.i P.a2 P.h2 P.a3 P.h3 P.a4 P.h4 P.a5 P.h5 P.a6 P.h6 P.a7 P.h7 hc0 hc1 P.x0 P.x1 P.x2 xs

def Pt1.outA (hc0 : cond1_0 P.i) (hc1 : ¬cond1_1 P.i) := rd1 (P.runA hc0 hc1).1 (P.runA hc0 hc1).2.1 (P.runA hc0 hc1).2.2.1
def Pt1.outB (hc0 : ¬cond1_0 P.i) (hc1 : ¬cond1_1 P.i) := rd1 (P.runB xs hc0 hc1).1 (P.runB xs hc0 hc1).2.1 (P.runB xs hc0 hc1).2.2.1
def Pt1.outC (hc0 : ¬cond1_0 P.i) (hc1 : cond1_1 P.i) := rd1 (P.runC xs hc0 hc1).1 (P.runC xs hc0 hc1).2.1 (P.runC xs hc0 hc1).2.2.1

/-- Every case stores the accumulator whole, and the last case both result blocks: the stored rectangles tile the buffer. -/
theorem Pt1.scoverA (hc0 : cond1_0 P.i) (hc1 : ¬cond1_1 P.i) (y : S1024x1024.Idx) : ∃ pc ∈ (P.runA hc0 hc1).2.2.1, y ∈ pc.1.set :=
  View.cover_of_tiledL (P.runA hc0 hc1).2.2.1 S1024x1024.size (by sl_kernel_rfl) y
theorem Pt1.scoverB (hc0 : ¬cond1_0 P.i) (hc1 : ¬cond1_1 P.i) (y : S1024x1024.Idx) : ∃ pc ∈ (P.runB xs hc0 hc1).2.2.1, y ∈ pc.1.set :=
  View.cover_of_tiledL (P.runB xs hc0 hc1).2.2.1 S1024x1024.size (by sl_kernel_rfl) y
theorem Pt1.scoverC (hc0 : ¬cond1_0 P.i) (hc1 : cond1_1 P.i) (y : S1024x1024.Idx) : ∃ pc ∈ (P.runC xs hc0 hc1).2.2.1, y ∈ pc.1.set :=
  View.cover_of_tiledL (P.runC xs hc0 hc1).2.2.1 S1024x1024.size (by sl_kernel_rfl) y
theorem Pt1.coverC3 (hc0 : ¬cond1_0 P.i) (hc1 : cond1_1 P.i) (y : S1024x1024.Idx) : ∃ pc ∈ (P.runC xs hc0 hc1).1, y ∈ pc.1.set :=
  View.cover_of_tiledL (P.runC xs hc0 hc1).1 S1024x1024.size (by sl_kernel_rfl) y
theorem Pt1.coverC4 (hc0 : ¬cond1_0 P.i) (hc1 : cond1_1 P.i) (y : S1024x1.Idx) : ∃ pc ∈ (P.runC xs hc0 hc1).2.1, y ∈ pc.1.set :=
  View.cover_of_tiledL (P.runC xs hc0 hc1).2.1 S1024x1.size (by sl_kernel_rfl) y
end

section
variable (V : (c : Dev nD) → (b : Ref sig .tc) → Buf (Elt F) ((c : Thread nD τ).loc b))

def pt1 (c : Dev nD) (t : Fin cfg1.N) : Pt1 F :=
  ⟨c, grid1.coords t, ms1_0 t, hs1_0 t, ms1_1 t, hs1_1 t, ms1_2 t, hs1_2 t, ms1_3 t, hs1_3 t, ms1_4 t, hs1_4 t, scM1_0, Memref.isWhole_whole _, iblk1 V c 0 t, iblk1 V c 1 t, iblk1 V c 2 t⟩

def outA1 (c : Dev nD) (t : Fin cfg1.N) (h0 : t.val % 4 = 0) (h1 : ¬t.val % 4 = 3) :=
  (pt1 V c t).outA ((hcond1_0 t).mpr h0) (fun h => h1 ((hcond1_1 t).mp h))
def outB1 (c : Dev nD) (t : Fin cfg1.N) (h0 : ¬t.val % 4 = 0) (h1 : ¬t.val % 4 = 3) (xs : Vec F S1024x1024 .f32) :=
  (pt1 V c t).outB xs (fun h => h0 ((hcond1_0 t).mp h)) (fun h => h1 ((hcond1_1 t).mp h))
def outC1 (c : Dev nD) (t : Fin cfg1.N) (h0 : ¬t.val % 4 = 0) (h1 : t.val % 4 = 3) (xs : Vec F S1024x1024 .f32) :=
  (pt1 V c t).outC xs (fun h => h0 ((hcond1_0 t).mp h)) ((hcond1_1 t).mpr h1)

/-- (features block, squared-norms block, accumulator) after the body at position `n`: the case `n % 4` selects, run from what the position before left in the accumulator. -/
def outsAt1 (c : Dev nD) : (n : ℕ) → n < cfg1.N → Vec F S1024x1024 .bf16 × Vec F S1024x1 .f32 × Vec F S1024x1024 .f32
  | 0, hn => outA1 V c ⟨0, hn⟩ (Nat.zero_mod _) (by show ¬0 % 4 = 3; decide)
  | n + 1, hn =>
    if h0 : (n + 1) % 4 = 0 then outA1 V c ⟨n + 1, hn⟩ h0 (by show ¬(n + 1) % 4 = 3; omega)
    else if h1 : (n + 1) % 4 = 3 then outC1 V c ⟨n + 1, hn⟩ h0 h1 (outsAt1 c n (Nat.lt_of_succ_lt hn)).2.2
    else outB1 V c ⟨n + 1, hn⟩ h0 h1 (outsAt1 c n (Nat.lt_of_succ_lt hn)).2.2

abbrev prev1 (c : Dev nD) (t : Fin cfg1.N) : Vec F S1024x1024 .f32 := (outsAt1 V c (t.val - 1) (Nat.lt_of_le_of_lt (Nat.sub_le _ _) t.isLt)).2.2

theorem outsAt1_A (c : Dev nD) (t : Fin cfg1.N) (h0 : t.val % 4 = 0) (h1 : ¬t.val % 4 = 3) :
    outsAt1 V c t.val t.isLt = outA1 V c t h0 h1 := by
  obtain ⟨n, hn⟩ := t
  cases n with
  | zero => rfl
  | succ n => exact dif_pos h0

theorem outsAt1_B (c : Dev nD) (t : Fin cfg1.N) (h0 : ¬t.val % 4 = 0) (h1 : ¬t.val % 4 = 3) :
    outsAt1 V c t.val t.isLt = outB1 V c t h0 h1 (prev1 V c t) := by
  obtain ⟨n, hn⟩ := t
  cases n with
  | zero => exact absurd (Nat.zero_mod _) h0
  | succ n => exact (dif_neg h0).trans (dif_neg h1)

theorem outsAt1_C (c : Dev nD) (t : Fin cfg1.N) (h0 : ¬t.val % 4 = 0) (h1 : t.val % 4 = 3) :
    outsAt1 V c t.val t.isLt = outC1 V c t h0 h1 (prev1 V c t) := by
  obtain ⟨n, hn⟩ := t
  cases n with
  | zero => exact absurd (Nat.zero_mod _) h0
  | succ n => exact (dif_neg h0).trans (dif_pos h1)

/-- Before position `n` the accumulator holds anything at the start, afterwards what the position before left. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2.2) ∗ others1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1_0 fullShare ((outsAt1 V c n hn).2.2) ∗ others1 c) ∗ (∃ r, prngReg c r)) := rfl
theorem PhiS1_pos (c : Dev nD) (n : ℕ) (h : n ≤ cfg1.N) (hz : n ≠ 0) :
    PhiS1 V c n h = iprop(iprop(owns (c : Thread nD τ) scM1_0 fullShare ((outsAt1 V c (n - 1) (by omega)).2.2) ∗ others1 c) ∗ (∃ r, prngReg c r)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
    | ⟨4, _⟩ => (outsAt1 V c t.val t.isLt).2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem after1_4 (c : Dev nD) (t : Fin cfg1.N) : (dat1 V c).after 4 t = (outsAt1 V c t.val t.isLt).2.1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, Hoth⟩, Hg⟩
  isplitl [HS0 Hoth]
  · isplitl [HS0]
    · iexists _; iexact HS0
    iexact Hoth
  iexact Hg

/-- At every position the accumulator is owned at some contents. -/
theorem Phi_any1 (c : Dev nD) (t : Fin (cfg1.N + 1)) : (dat1 V c).Φ t ⊢ Pipeline.ΦA spec1 c := by
  by_cases ht : t.val = 0
  · rw [show (dat1 V c).Φ t = PhiS1 V c t.val (Nat.le_of_lt_succ t.isLt) from rfl, PhiS1_zero V c _ _ ht]
  · exact Phi_out1 V c t ht

theorem hout1 (c : Dev nD) : (dat1 V c).Φ (Fin.last cfg1.N) ⊢ Pipeline.ΦA spec1 c :=
  Phi_out1 V c _ (by rw [Fin.val_last]; have : cfg1.N = 8 := N_1; omega)

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

theorem leaves1_0 (c : Dev nD) (t : Fin cfg1.N) : (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) : (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) : (dat1 V c).leavesExact 2 t = owns (c : Thread nD τ) (ms1_2 t) fullShare (iblk1 V c 2 t) := by
  unfold Dat.leavesExact; rw [liveAt1_2 t, after1_2]

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 8 := lt_of_lt_of_eq t.isLt (show cfg1.N = 8 from N_1)
  rw [leaves1_0, leaves1_1, leaves1_2]
  by_cases h1 : t.val % 4 = 3
  · have h0 : ¬t.val % 4 = 0 := by omega
    have hz : t.val ≠ 0 := by omega
    rw [show (dat1 V c).leavesExact 3 t = owns (c : Thread nD τ) (ms1_3 t) fullShare ((dat1 V c).after 3 t) from by
      unfold Dat.leavesExact; rw [liveAt1_3 t ((hcond1_1 t).mpr h1)], after1_3]
    rw [show (dat1 V c).leavesExact 4 t = owns (c : Thread nD τ) (ms1_4 t) fullShare ((dat1 V c).after 4 t) from by
      unfold Dat.leavesExact; rw [liveAt1_4 t ((hcond1_1 t).mpr h1)], after1_4]
    rw [outsAt1_C V c t h0 h1]
    dsimp only [outC1, Pt1.outC, rd1]
    rw [PhiS1_castSucc V c t, PhiS1_pos V c _ _ hz]
    iintro ⟨⟨⟨HS0, Hoth⟩, Hg⟩, Ho, ⟨%d0, H0⟩, ⟨%d1, H1⟩, ⟨%d2, H2⟩, ⟨%d3, H3⟩, ⟨%d4, H4⟩⟩
    iapply (((pt1 V c t).runC _ (fun h => h0 ((hcond1_0 t).mp h)) ((hcond1_1 t).mpr h1)).2.2.2 Set.univ _)
    isplitl [H0]; · iexact H0
    isplitl [H1]; · iexact H1
    isplitl [H2]; · iexact H2
    isplitl [H3]; · iexists _; iexact H3
    isplitl [H4]; · iexists _; iexact H4
    isplitl [HS0]; · iexact HS0
    iintro ⟨H0, H1, H2, ⟨%e3, H3⟩, ⟨%e4, H4⟩, ⟨%es0, HS0⟩⟩
    isplitl [HS0 Hoth Hg]
    · isplitl [HS0 Hoth]
      · isplitl [HS0]
        · unfold owns; iexists _; isplitr
          swap; · iexact HS0
          ipureintro; exact View.read_writes_of_cover _ _ _ _ _ ((pt1 V c t).scoverC _ _ _)
        iexact Hoth
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ ((pt1 V c t).coverC3 _ _ _)
    unfold owns; iexists _; isplitr
    swap; · iexact H4
    ipureintro; exact View.read_writes_of_cover _ _ _ _ _ ((pt1 V c t).coverC4 _ _ _)
  · rw [Dat.leavesExact_idle (dat1 V c) 3 t (idleAt1_3 t (fun h => h1 ((hcond1_1 t).mp h))) (noFlush1_3 t (fun h => h1 ((hcond1_1 t).mp h)))]
    rw [Dat.leavesExact_idle (dat1 V c) 4 t (idleAt1_4 t (fun h => h1 ((hcond1_1 t).mp h))) (noFlush1_4 t (fun h => h1 ((hcond1_1 t).mp h)))]
    by_cases h0 : t.val % 4 = 0
    · rw [outsAt1_A V c t h0 h1]
      dsimp only [outA1, Pt1.outA, rd1]
      refine (sep_mono (Phi_any1 V c t.castSucc) .rfl).trans ?_
      rw [PhiA1_eq]
      iintro ⟨⟨⟨HS0, Hoth⟩, Hg⟩, Ho, ⟨%d0, H0⟩, ⟨%d1, H1⟩, ⟨%d2, H2⟩, ⟨%d3, H3⟩, ⟨%d4, H4⟩⟩
      iapply (((pt1 V c t).runA ((hcond1_0 t).mpr h0) (fun h => h1 ((hcond1_1 t).mp h))).2.2.2 _ _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ ((pt1 V c t).scoverA _ _)
          iexact Hoth
        iexact Hg
      isplitl [Ho]; · iexact Ho
      isplitl [H0]; · iexact H0
      isplitl [H1]; · iexact H1
      isplitl [H2]; · iexact H2
      isplitl [H3]; · iexists _; iexact H3
      iexists _; iexact H4
    · have hz : t.val ≠ 0 := by omega
      rw [outsAt1_B V c t h0 h1]
      dsimp only [outB1, Pt1.outB, rd1]
      rw [PhiS1_castSucc V c t, PhiS1_pos V c _ _ hz]
      iintro ⟨⟨⟨HS0, Hoth⟩, Hg⟩, Ho, ⟨%d0, H0⟩, ⟨%d1, H1⟩, ⟨%d2, H2⟩, ⟨%d3, H3⟩, ⟨%d4, H4⟩⟩
      iapply (((pt1 V c t).runB _ (fun h => h0 ((hcond1_0 t).mp h)) (fun h => h1 ((hcond1_1 t).mp h))).2.2.2 _ _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ ((pt1 V c t).scoverB _ _ _)
          iexact Hoth
        iexact Hg
      isplitl [Ho]; · iexact Ho
      isplitl [H0]; · iexact H0
      isplitl [H1]; · iexact H1
      isplitl [H2]; · iexact H2
      isplitl [H3]; · iexists _; iexact H3
      iexists _; iexact H4

theorem body_obligation1 (c : Dev nD) : BodyObligation (dat1 (F := F) V c) (defs₀ (F := F)) Variants.none () Set.univ := fun t => by
  rw [bigSep_W1, bigSep_W1]
  exact sound_body1 V c t

end

end Cert.KernelIdeal.Fr

end
-- ==== Proof.KI.R2Base.lean ====
import proofs.«148324_j39651138077344_1_alg».proof.Proof.Gen.KernelIdeal.Launch
import proofs.«148324_j39651138077344_1_alg».proof.Proof.Gen.KernelIdeal.Skeleton
import proofs.«148324_j39651138077344_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
end

abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 2 = 0 :=
  (by decide +kernel : ∀ t : Fin grid2.N, cond2_0 (grid2.coords t) ↔ t.val % 2 = 0)
abbrev cond2_1 (i : grid2.Coords) : Prop := k2_cond2 i = 1#1
theorem hcond2_1 : ∀ t : Fin cfg2.N, cond2_1 (grid2.coords t) ↔ t.val % 2 = 1 :=
  (by decide +kernel : ∀ t : Fin grid2.N, cond2_1 (grid2.coords t) ↔ t.val % 2 = 1)

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem idleAt2_4 : ∀ t : Fin cfg2.N, ¬cond2_1 (grid2.coords t) → cfg2.idle 4 (grid2.coords t) = true := by decide +kernel
theorem noFlush2_4 : ∀ t : Fin cfg2.N, ¬cond2_1 (grid2.coords t) → (cfg2.win 4).flush t = false := by decide +kernel
theorem liveAt2_4 : ∀ t : Fin cfg2.N, cond2_1 (grid2.coords t) → cfg2.idle 4 (grid2.coords t) = false := by decide +kernel

abbrev VO2_4 : View sig .tc .vmem S1024x1 .f32 := (Memref.whole cc2_stg4_0 : Memref sig .tc .vmem S1024x1 .f32).view
abbrev ms2_0 (t : Fin cfg2.N) : Memref sig .tc .vmem S1024x1024 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x1 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x1024 .bf16 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x1024 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1024x1 .f32 := win2_4.stage (cfg2.slots t 4)
abbrev hs2_4 (t : Fin cfg2.N) : (ms2_4 t).IsWhole := hstage2_4 ((cfg2.slots t 4).cast nbuf2_4)
abbrev scM2_0 : Memref sig .tc .vmem S1024x1 .f32 := Memref.whole cc2_scratch0
abbrev VS2_0 : View sig .tc .vmem S1024x1 .f32 := scM2_0.view

abbrev others2 (c : Dev nD) : sProp 𝕄 := Pipeline.scopedRestBut spec2 c [cc2_scratch0]

/-- The region's own scoped buffers with the accumulator split off, owned at some contents. -/
theorem PhiA2_eq (c : Dev nD) :
    (Pipeline.ΦA spec2 c : sProp 𝕄)
      = iprop(iprop((∃ d, owns (c : Thread nD τ) scM2_0 fullShare d) ∗ others2 c) ∗ (∃ r, prngReg c r)) := by
  unfold Pipeline.ΦA
  rw [Pipeline.scopedRest_split_of_list spec2 c [cc2_scratch0] (by decide) (by decide)]
  simp only [bigSepL_singleton, scM2_0, owns_whole]; try rfl

set_option genInjectivity false in
set_option genSizeOfSpec false in
/-- What the body runs on at a grid point: its six whole buffers and the four blocks it loads. -/
structure Pt2 (F : FTy → Type) where
  c : Dev nD
  i : grid2.Coords
  a2 : Memref sig .tc .vmem S1024x1024 .bf16
  h2 : a2.IsWhole
  a3 : Memref sig .tc .vmem S1024x1 .f32
  h3 : a3.IsWhole
  a4 : Memref sig .tc .vmem S1024x1024 .bf16
  h4 : a4.IsWhole
  a5 : Memref sig .tc .vmem S1x1024 .f32
  h5 : a5.IsWhole
  a6 : Memref sig .tc .vmem S1024x1 .f32
  h6 : a6.IsWhole
  a7 : Memref sig .tc .vmem S1024x1 .f32
  h7 : a7.IsWhole
  x0 : Vec F S1024x1024 .bf16
  x1 : Vec F S1024x1 .f32
  x2 : Vec F S1024x1024 .bf16
  x3 : Vec F S1x1024 .f32

end Cert.KernelIdeal.Fr

end
-- ==== Proof.KI.R2RunA.lean ====
import proofs.«148324_j39651138077344_1_alg».proof.Proof.KI.R2Base

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun2_A (c : Dev nD) (i : grid2.Coords) (arg2 : Memref sig .tc .vmem S1024x1024 .bf16) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1024x1 .f32) (harg7 : arg7.IsWhole) (hc0 : cond2_0 i) (hc1 : ¬cond2_1 i)
    (x0 : Vec F S1024x1024 .bf16) (x1 : Vec F S1024x1 .f32) (x2 : Vec F S1024x1024 .bf16) (x3 : Vec F S1x1024 .f32) :
    Σ' (L4 : List (View.Piece (Elt F) S1024x1 .f32)), { LS0 : List (View.Piece (Elt F) S1024x1 .f32) //
      ∀ (xi4 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc2_kernel i arg2 harg2 arg3 harg3 arg4 harg4 arg5 harg5 arg6 harg6 arg7 harg7) K } := by
  refine ⟨[], ?_, fun xi4 E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Fr

end
-- ==== Proof.KI.R2RunC.lean ====
import proofs.«148324_j39651138077344_1_alg».proof.Proof.KI.R2Base

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun2_C (c : Dev nD) (i : grid2.Coords) (arg2 : Memref sig .tc .vmem S1024x1024 .bf16) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1024x1 .f32) (harg7 : arg7.IsWhole) (hc0 : ¬cond2_0 i) (hc1 : cond2_1 i)
    (x0 : Vec F S1024x1024 .bf16) (x1 : Vec F S1024x1 .f32) (x2 : Vec F S1024x1024 .bf16) (x3 : Vec F S1x1024 .f32) (xs0 : Vec F S1024x1 .f32) :
    Σ' (L4 : List (View.Piece (Elt F) S1024x1 .f32)), { LS0 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc2_kernel i arg2 harg2 arg3 harg3 arg4 harg4 arg5 harg5 arg6 harg6 arg7 harg7) K } := by
  refine ⟨?_, ?_, fun E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.KernelIdeal.Fr

end
-- ==== Proof.KI.R2Dat.lean ====
import proofs.«148324_j39651138077344_1_alg».proof.Proof.KI.R2RunA
import proofs.«148324_j39651138077344_1_alg».proof.Proof.KI.R2RunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The result buffer and the accumulator, read back after a list of stores into each. -/
def rd2 (L4 LS : List (View.Piece (Elt F) S1024x1 .f32)) : Vec F S1024x1 .f32 × Vec F S1024x1 .f32 :=
  (VO2_4.read (Elt F) (VO2_4.writes (Elt F) VO2_4.junk L4), VS2_0.read (Elt F) (VS2_0.writes (Elt F) VS2_0.junk LS))

section
variable (P : Pt2 F) (xs : Vec F S1024x1 .f32)

def Pt2.runA (hc0 : cond2_0 P.i) (hc1 : ¬cond2_1 P.i) :=
  kernelRun2_A P.c P.i P.a2 P.h2 P.a3 P.h3 P.a4 P.h4 P.a5 P.h5 P.a6 P.h6 P.a7 P.h7 hc0 hc1 P.x0 P.x1 P.x2 P.x3
def Pt2.runC (hc0 : ¬cond2_0 P.i) (hc1 : cond2_1 P.i) :=
  kernelRun2_C P.c P.i P.a2 P.h2 P.a3 P.h3 P.a4 P.h4 P.a5 P.h5 P.a6 P.h6 P.a7 P.h7 hc0 hc1 P.x0 P.x1 P.x2 P.x3 xs

def Pt2.outA (hc0 : cond2_0 P.i) (hc1 : ¬cond2_1 P.i) := rd2 (P.runA hc0 hc1).1 (P.runA hc0 hc1).2.1
def Pt2.outC (hc0 : ¬cond2_0 P.i) (hc1 : cond2_1 P.i) := rd2 (P.runC xs hc0 hc1).1 (P.runC xs hc0 hc1).2.1

/-- Both cases store the accumulator whole, and the last case the result block: the stored rectangles tile the buffer. -/
theorem Pt2.scoverA (hc0 : cond2_0 P.i) (hc1 : ¬cond2_1 P.i) (y : S1024x1.Idx) : ∃ pc ∈ (P.runA hc0 hc1).2.1, y ∈ pc.1.set :=
  View.cover_of_tiledL (P.runA hc0 hc1).2.1 S1024x1.size (by sl_kernel_rfl) y
theorem Pt2.scoverC (hc0 : ¬cond2_0 P.i) (hc1 : cond2_1 P.i) (y : S1024x1.Idx) : ∃ pc ∈ (P.runC xs hc0 hc1).2.1, y ∈ pc.1.set :=
  View.cover_of_tiledL (P.runC xs hc0 hc1).2.1 S1024x1.size (by sl_kernel_rfl) y
theorem Pt2.coverC4 (hc0 : ¬cond2_0 P.i) (hc1 : cond2_1 P.i) (y : S1024x1.Idx) : ∃ pc ∈ (P.runC xs hc0 hc1).1, y ∈ pc.1.set :=
  View.cover_of_tiledL (P.runC xs hc0 hc1).1 S1024x1.size (by sl_kernel_rfl) y
end

theorem hc2_A0 (t : Fin cfg2.N) (h0 : t.val % 2 = 0) : cond2_0 (grid2.coords t) := (hcond2_0 t).mpr h0
theorem hc2_A1 (t : Fin cfg2.N) (h0 : t.val % 2 = 0) : ¬cond2_1 (grid2.coords t) := fun h => by
  have h1 := (hcond2_1 t).mp h; omega
theorem hc2_C0 (t : Fin cfg2.N) (h0 : ¬t.val % 2 = 0) : ¬cond2_0 (grid2.coords t) := fun h => h0 ((hcond2_0 t).mp h)
theorem hc2_C1 (t : Fin cfg2.N) (h0 : ¬t.val % 2 = 0) : cond2_1 (grid2.coords t) := (hcond2_1 t).mpr (by omega)

section
variable (V : (c : Dev nD) → (b : Ref sig .tc) → Buf (Elt F) ((c : Thread nD τ).loc b))

def pt2 (c : Dev nD) (t : Fin cfg2.N) : Pt2 F :=
  ⟨c, grid2.coords t, ms2_0 t, hs2_0 t, ms2_1 t, hs2_1 t, ms2_2 t, hs2_2 t, ms2_3 t, hs2_3 t, ms2_4 t, hs2_4 t, scM2_0, Memref.isWhole_whole _, iblk2 V c 0 t, iblk2 V c 1 t, iblk2 V c 2 t, iblk2 V c 3 t⟩

def outA2 (c : Dev nD) (t : Fin cfg2.N) (h0 : t.val % 2 = 0) := (pt2 V c t).outA (hc2_A0 t h0) (hc2_A1 t h0)
def outC2 (c : Dev nD) (t : Fin cfg2.N) (h0 : ¬t.val % 2 = 0) (xs : Vec F S1024x1 .f32) := (pt2 V c t).outC xs (hc2_C0 t h0) (hc2_C1 t h0)

/-- (result block, accumulator) after the body at position `n`: the case its parity selects, run from what the position before left in the accumulator. -/
def outsAt2 (c : Dev nD) : (n : ℕ) → n < cfg2.N → Vec F S1024x1 .f32 × Vec F S1024x1 .f32
  | 0, hn => outA2 V c ⟨0, hn⟩ (Nat.zero_mod _)
  | n + 1, hn =>
    if h0 : (n + 1) % 2 = 0 then outA2 V c ⟨n + 1, hn⟩ h0
    else outC2 V c ⟨n + 1, hn⟩ h0 (outsAt2 c n (Nat.lt_of_succ_lt hn)).2

abbrev prev2 (c : Dev nD) (t : Fin cfg2.N) : Vec F S1024x1 .f32 := (outsAt2 V c (t.val - 1) (Nat.lt_of_le_of_lt (Nat.sub_le _ _) t.isLt)).2

theorem outsAt2_A (c : Dev nD) (t : Fin cfg2.N) (h0 : t.val % 2 = 0) : outsAt2 V c t.val t.isLt = outA2 V c t h0 := by
  obtain ⟨n, hn⟩ := t
  cases n with
  | zero => rfl
  | succ n => exact dif_pos h0

theorem outsAt2_C (c : Dev nD) (t : Fin cfg2.N) (h0 : ¬t.val % 2 = 0) : outsAt2 V c t.val t.isLt = outC2 V c t h0 (prev2 V c t) := by
  obtain ⟨n, hn⟩ := t
  cases n with
  | zero => exact absurd (Nat.zero_mod _) h0
  | succ n => exact dif_neg h0

/-- Before position `n` the accumulator holds anything at the start, afterwards what the position before left. -/
def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2) ∗ others2 c) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(owns (c : Thread nD τ) scM2_0 fullShare ((outsAt2 V c n hn).2) ∗ others2 c) ∗ (∃ r, prngReg c r)) := rfl
theorem PhiS2_pos (c : Dev nD) (n : ℕ) (h : n ≤ cfg2.N) (hz : n ≠ 0) :
    PhiS2 V c n h = iprop(iprop(owns (c : Thread nD τ) scM2_0 fullShare ((outsAt2 V c (n - 1) (by omega)).2) ∗ others2 c) ∗ (∃ r, prngReg c r)) := by
  cases n with
  | zero => exact absurd rfl hz
  | succ n => rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS0, Hoth⟩, Hg⟩
  isplitl [HS0 Hoth]
  · isplitl [HS0]
    · iexists _; iexact HS0
    iexact Hoth
  iexact Hg

/-- At every position the accumulator is owned at some contents. -/
theorem Phi_any2 (c : Dev nD) (t : Fin (cfg2.N + 1)) : (dat2 V c).Φ t ⊢ Pipeline.ΦA spec2 c := by
  by_cases ht : t.val = 0
  · rw [show (dat2 V c).Φ t = PhiS2 V c t.val (Nat.le_of_lt_succ t.isLt) from rfl, PhiS2_zero V c _ _ ht]
  · exact Phi_out2 V c t ht

theorem hout2 (c : Dev nD) : (dat2 V c).Φ (Fin.last cfg2.N) ⊢ Pipeline.ΦA spec2 c :=
  Phi_out2 V c _ (by rw [Fin.val_last]; have : cfg2.N = 8 := N_2; omega)

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

theorem leaves2_0 (c : Dev nD) (t : Fin cfg2.N) : (dat2 V c).leavesExact 0 t = owns (c : Thread nD τ) (ms2_0 t) fullShare (iblk2 V c 0 t) := by
  unfold Dat.leavesExact; rw [liveAt2_0 t, after2_0]
theorem leaves2_1 (c : Dev nD) (t : Fin cfg2.N) : (dat2 V c).leavesExact 1 t = owns (c : Thread nD τ) (ms2_1 t) fullShare (iblk2 V c 1 t) := by
  unfold Dat.leavesExact; rw [liveAt2_1 t, after2_1]
theorem leaves2_2 (c : Dev nD) (t : Fin cfg2.N) : (dat2 V c).leavesExact 2 t = owns (c : Thread nD τ) (ms2_2 t) fullShare (iblk2 V c 2 t) := by
  unfold Dat.leavesExact; rw [liveAt2_2 t, after2_2]
theorem leaves2_3 (c : Dev nD) (t : Fin cfg2.N) : (dat2 V c).leavesExact 3 t = owns (c : Thread nD τ) (ms2_3 t) fullShare (iblk2 V c 3 t) := by
  unfold Dat.leavesExact; rw [liveAt2_3 t, after2_3]

set_option maxHeartbeats 4800000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  rw [leaves2_0, leaves2_1, leaves2_2, leaves2_3]
  by_cases h0 : t.val % 2 = 0
  · rw [Dat.leavesExact_idle (dat2 V c) 4 t (idleAt2_4 t (hc2_A1 t h0)) (noFlush2_4 t (hc2_A1 t h0))]
    rw [outsAt2_A V c t h0]
    dsimp only [outA2, Pt2.outA, rd2]
    refine (sep_mono (Phi_any2 V c t.castSucc) .rfl).trans ?_
    rw [PhiA2_eq]
    iintro ⟨⟨⟨HS0, Hoth⟩, Hg⟩, Ho, ⟨%d0, H0⟩, ⟨%d1, H1⟩, ⟨%d2, H2⟩, ⟨%d3, H3⟩, ⟨%d4, H4⟩⟩
    iapply (((pt2 V c t).runA (hc2_A0 t h0) (hc2_A1 t h0)).2.2 _ Set.univ _)
    isplitl [H0]; · iexact H0
    isplitl [H1]; · iexact H1
    isplitl [H2]; · iexact H2
    isplitl [H3]; · iexact H3
    isplitl [H4]; · iexact H4
    isplitl [HS0]; · iexact HS0
    iintro ⟨H0, H1, H2, H3, H4, ⟨%es0, HS0⟩⟩
    isplitl [HS0 Hoth Hg]
    · isplitl [HS0 Hoth]
      · isplitl [HS0]
        · unfold owns; iexists _; isplitr
          swap; · iexact HS0
          ipureintro; exact View.read_writes_of_cover _ _ _ _ _ ((pt2 V c t).scoverA _ _)
        iexact Hoth
      iexact Hg
    isplitl [Ho]; · iexact Ho
    isplitl [H0]; · iexact H0
    isplitl [H1]; · iexact H1
    isplitl [H2]; · iexact H2
    isplitl [H3]; · iexact H3
    iexists _; iexact H4
  · have hz : t.val ≠ 0 := fun h => h0 (by rw [h])
    rw [show (dat2 V c).leavesExact 4 t = owns (c : Thread nD τ) (ms2_4 t) fullShare ((dat2 V c).after 4 t) from by
      unfold Dat.leavesExact; rw [liveAt2_4 t (hc2_C1 t h0)], after2_4]
    rw [outsAt2_C V c t h0]
    dsimp only [outC2, Pt2.outC, rd2]
    rw [PhiS2_castSucc V c t, PhiS2_pos V c _ _ hz]
    iintro ⟨⟨⟨HS0, Hoth⟩, Hg⟩, Ho, ⟨%d0, H0⟩, ⟨%d1, H1⟩, ⟨%d2, H2⟩, ⟨%d3, H3⟩, ⟨%d4, H4⟩⟩
    iapply (((pt2 V c t).runC _ (hc2_C0 t h0) (hc2_C1 t h0)).2.2 Set.univ _)
    isplitl [H0]; · iexact H0
    isplitl [H1]; · iexact H1
    isplitl [H2]; · iexact H2
    isplitl [H3]; · iexact H3
    isplitl [H4]; · iexists _; iexact H4
    isplitl [HS0]; · iexact HS0
    iintro ⟨H0, H1, H2, H3, ⟨%e4, H4⟩, ⟨%es0, HS0⟩⟩
    isplitl [HS0 Hoth Hg]
    · isplitl [HS0 Hoth]
      · isplitl [HS0]
        · unfold owns; iexists _; isplitr
          swap; · iexact HS0
          ipureintro; exact View.read_writes_of_cover _ _ _ _ _ ((pt2 V c t).scoverC _ _ _)
        iexact Hoth
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ ((pt2 V c t).coverC4 _ _ _)

theorem body_obligation2 (c : Dev nD) : BodyObligation (dat2 (F := F) V c) (defs₀ (F := F)) Variants.none () Set.univ := fun t => by
  rw [bigSep_W2, bigSep_W2]
  exact sound_body2 V c t

end

end Cert.KernelIdeal.Fr

end
-- ==== Proof.KI.Run.lean ====
import proofs.«148324_j39651138077344_1_alg».proof.Proof.KI.R0Dat
import proofs.«148324_j39651138077344_1_alg».proof.Proof.KI.R1Dat
import proofs.«148324_j39651138077344_1_alg».proof.Proof.KI.R2Dat
import Idealize.ShloMosaic.Lib.Pipeline.RegionsLoop
import Idealize.ShloMosaic.Lib.Pipeline.FrameSuffix

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

abbrev W4 : Dev nD → Valuation τ sig (Elt F) := fun c => StableHlo.after hostOps2 (W3 m ρ c)
abbrev V4 : (c : Dev nD) → (b : Ref sig .tc) → Buf (Elt F) ((c : Thread nD τ).loc b) := fun c b => W4 m ρ c b
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev V5 : (c : Dev nD) → (b : Ref sig .tc) → Buf (Elt F) ((c : Thread nD τ).loc b) := fun c b => W5 m ρ c b
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

abbrev W6 : Dev nD → Valuation τ sig (Elt F) := fun c => StableHlo.after hostOps3 (W5 m ρ c)

abbrev adm : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V4 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m ρ c) ∗ ∃ r, prngReg c r)

set_option backward.isDefEq.respectTransparency.types false in
/-- A region over the thread state: entered with every unscoped buffer at `Wi`, left with them at `Wo`, which has the
    region's arrays as its write-backs leave them and every other buffer as entered. -/
def regOf (p : Fin 3) (kit : Pipeline.LaunchFacts (nD := nD) (τ := τ) cfgs p) (Wi Wo : Dev nD → Valuation τ sig (Elt F))
    (hb : ∀ c, BodyObligation (pdats m ρ p c) (defs₀ (F := F)) Variants.none () Set.univ)
    (hq : ∀ c w, (pdats m ρ p c).q w = fullShare) (hz : ∀ c t, (pdats m ρ p c).owed t = 0)
    (hrec : ∀ c t, (pdats m ρ p c).recorded t = Set.univ)
    (hA : ∀ c w, (pdats m ρ p c).A w = Wi c (Proc.devRef .tc (Pipeline.arrRef (cfgs p).spec w)))
    (hΦi : ∀ c, Pipeline.ΦA (cfgs p).spec c ⊢ (pdats m ρ p c).Φ 0)
    (hΦo : ∀ c, (pdats m ρ p c).Φ (Fin.last (cfgs p).N) ⊢ Pipeline.ΦA (cfgs p).spec c)
    (hF : ∀ c w, (pdats m ρ p c).arrAt w (cfgs p).N = Wo c (Proc.devRef .tc (Pipeline.arrRef (cfgs p).spec w)))
    (hr : ∀ c, ∀ b : Ref sig .tc, b ∉ Finset.univ.image (Pipeline.arrRef (cfgs p).spec) → Wo c (Proc.devRef .tc b) = Wi c (Proc.devRef .tc b)) :
    Pipeline.RegionSeg (pcfgs (F := F)) adm (pdats m ρ) () defs₀ 𝒱₀ L lv p where
  win := kit.win.to₀
  block_pos := kit.block_pos
  stage_whole := kit.stage_whole
  K := PEmpty
  osem k := k.elim
  ho := Pipeline.OwnSemFacts.none _
  hbody c := (hb c).loose
  hwaits := Pipeline.hwaits_of_owed_zero _ _ _ _ L lv p hz
  pre c := iprop(StableHlo.held (c : Thread nD τ) (Pipeline.ucRefs τ sig) (Wi c) ∗ R c)
  post c := iprop(StableHlo.held (c : Thread nD τ) (Pipeline.ucRefs τ sig) (Wo c) ∗ R c)
  X c := iprop(∃ r, prngReg c r)
  Y c := iprop(∃ r, prngReg c r)
  Z c := Pipeline.unscopedRest (Ix := Unit) (Name := ℕ) (U := UR sig nD τ) (Lvl := ℕ) (cfgs p).spec c (fun b => Wi c b)
  hentry c := by
    rw [Pipeline.ownSems0_none]
    have hsplit := Pipeline.arrays_of_unscopedBufs (p := p) (pcfgs (F := F)) adm (pdats m ρ) kit.win kit.arr_whole c
      ((pdats m ρ p c).share_full (hq c)) (fun b => Wi c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [hz c 0]
      icases HO with ⟨%W, HO⟩; iexists W; isplitr; · ipureintro; exact fun _ _ => Or.inl (by rw [hrec c 0]; trivial)
      iexact HO
    isplitl [Hp]; · iexact Hp
    iexact Hrest
  hin c := by
    refine .trans ?_ (hΦi c)
    unfold Pipeline.ΦA
    iintro ⟨Hp, -, Hr⟩
    isplitl [Hr]; · iexact Hr
    iexact Hp
  hout c := by
    rw [Pipeline.ownSems0_none]
    refine (hΦo c).trans ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      kit.win kit.arr_whole c (pdats m ρ) ((pdats m ρ p c).share_full (hq c))
      (fun b => Wi c b) (fun b => Wo c b) ((pdats m ρ p c).arrAt · (cfgs p).N) (hF c) (hr c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [hz c (Fin.last _)]
    icases HO with ⟨%W, -, HO⟩; iexists W; iexact HO

def reg0 := regOf m ρ 0 launch0 (W1 m ρ) (W2 m ρ) (body_obligation0 (V1 m ρ)) (fun _ _ => rfl) (fun _ _ => rfl) (fun _ _ => rfl) (fun _ _ => rfl)
  (hin0 (V1 m ρ)) (hout0 (V1 m ρ)) (hF0 m ρ) (hrest0 m ρ)
def reg1 := regOf m ρ 1 launch1 (W2 m ρ) (W3 m ρ) (body_obligation1 (V2 m ρ)) (fun _ _ => rfl) (fun _ _ => rfl) (fun _ _ => rfl) (fun _ _ => rfl)
  (hin1 (V2 m ρ)) (hout1 (V2 m ρ)) (hF1 m ρ) (hrest1 m ρ)
def reg2 := regOf m ρ 2 launch2 (W4 m ρ) (W5 m ρ) (body_obligation2 (V4 m ρ)) (fun _ _ => rfl) (fun _ _ => rfl) (fun _ _ => rfl) (fun _ _ => rfl)
  (hin2 (V4 m ρ)) (hout2 (V4 m ρ)) (hF2 m ρ) (hrest2 m ρ)

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)),
    .region (reg2 m ρ),
    .host (hseg hostOps3 hostOps3_sub hostOps3_fresh (W5 m ρ)) ]
theorem main_run (c : Dev nD) : main (F := F) c = Pipeline.Seg.run (segs m ρ) := (main_chain c).trans (by chain_rfl)

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      show iprop(StableHlo.held (c : Thread nD τ) (Pipeline.ucRefs τ sig) (W6 m ρ c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

end Cert.KernelIdeal.Fr

end
-- ==== Proof.KI.Frame.lean ====
import proofs.«148324_j39651138077344_1_alg».proof.Proof.KI.Run
import proofs.«148324_j39651138077344_1_alg».proof.Proof.Gen.KernelIdeal.Regions

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No item of the program writes an argument: the contents at an argument's buffer walk back, item by item, to the launch memory. -/
theorem W6_main_arg0 (c : Dev nD) : W6 m ρ c (Proc.devRef .tc main_arg0) = m ((c : Thread nD τ).loc main_arg0) :=
  (StableHlo.after_of_writes_sub hostOps3 _ hostOps3_writes (by decide)).trans <| (W5_of_ne m ρ c main_arg0 (by decide)).trans <| (StableHlo.after_of_writes_sub hostOps2 _ hostOps2_writes (by decide)).trans <|
    (W3_of_ne m ρ c main_arg0 (by decide)).trans <| ((W2_arr m ρ c 0).trans (((dat0 (V1 m ρ) c).arrAt_in 0 rfl _).trans (A_eq0 (V1 m ρ) c 0))).trans <| (StableHlo.after_of_writes_sub hostOps0 _ hostOps0_writes (by decide))

theorem W6_main_arg1 (c : Dev nD) : W6 m ρ c (Proc.devRef .tc main_arg1) = m ((c : Thread nD τ).loc main_arg1) :=
  (StableHlo.after_of_writes_sub hostOps3 _ hostOps3_writes (by decide)).trans <| (W5_of_ne m ρ c main_arg1 (by decide)).trans <| (StableHlo.after_of_writes_sub hostOps2 _ hostOps2_writes (by decide)).trans <|
    ((W3_arr m ρ c 0).trans (((dat1 (V2 m ρ) c).arrAt_in 0 rfl _).trans (A_eq1 (V2 m ρ) c 0))).trans <| (W2_of_ne m ρ c main_arg1 (by decide)).trans <| (StableHlo.after_of_writes_sub hostOps0 _ hostOps0_writes (by decide))

theorem W6_main_arg2 (c : Dev nD) : W6 m ρ c (Proc.devRef .tc main_arg2) = m ((c : Thread nD τ).loc main_arg2) :=
  (StableHlo.after_of_writes_sub hostOps3 _ hostOps3_writes (by decide)).trans <| (W5_of_ne m ρ c main_arg2 (by decide)).trans <| (StableHlo.after_of_writes_sub hostOps2 _ hostOps2_writes (by decide)).trans <|
    ((W3_arr m ρ c 1).trans (((dat1 (V2 m ρ) c).arrAt_in 1 rfl _).trans (A_eq1 (V2 m ρ) c 1))).trans <| ((W2_arr m ρ c 1).trans (((dat0 (V1 m ρ) c).arrAt_in 1 rfl _).trans (A_eq0 (V1 m ρ) c 1))).trans <| (StableHlo.after_of_writes_sub hostOps0 _ hostOps0_writes (by decide))

theorem W6_main_arg3 (c : Dev nD) : W6 m ρ c (Proc.devRef .tc main_arg3) = m ((c : Thread nD τ).loc main_arg3) :=
  (StableHlo.after_of_writes_sub hostOps3 _ hostOps3_writes (by decide)).trans <| (W5_of_ne m ρ c main_arg3 (by decide)).trans <| (StableHlo.after_of_writes_sub hostOps2 _ hostOps2_writes (by decide)).trans <|
    (W3_of_ne m ρ c main_arg3 (by decide)).trans <| (W2_of_ne m ρ c main_arg3 (by decide)).trans <| (StableHlo.after_of_writes_sub hostOps0 _ hostOps0_writes (by decide))

theorem run_result : θ_run defs (onTc (τ := τ) (main (F := F))) ⟨m, fun _ => 0, ρ⟩ (fun r => ∀ c : Dev nD,
      r.2.mem ((c.tc : Thread nD τ).loc main_v5) = W6 m ρ c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨h c _ (mem_uc main_v5 (by decide)),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c)⟩) (run_all m ρ)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_result m ρ)

end Cert.KernelIdeal.Fr

end
-- ==== Proof.Spec.lean ====
import Idealize.ShloMosaic.PureOps.Ideal
import Idealize.ShloMosaic.PureOps.Ideal.Laws
import Idealize.ShloMosaic.Lib.ValueIdx
import Mathlib.Algebra.BigOperators.Fin
import Mathlib.Algebra.BigOperators.Group.Finset.Defs
import Mathlib.Data.Fintype.BigOperators
import Mathlib.Logic.Equiv.Fin.Basic

noncomputable section

namespace Cert.Spec

open Idealize.ShloMosaic Idealize.ShloMosaic.ValueIdx

abbrev Mat (a b : Nat) := (⟨2, ![a, b]⟩ : Shape).Idx → EReal
abbrev Row (a : Nat) := (⟨1, ![a]⟩ : Shape).Idx → EReal

abbrev two : EReal := Ideal.ofBits .f32 0x40000000#32
abbrev invN : EReal := Ideal.ofBits .f32 0x3A000000#32
abbrev bigN : EReal := Ideal.ofBits .f32 0x45000000#32

def feat {M : Nat} (X : Mat M 2048) (W : Mat 2048 1024) (b : Row 1024) (r : Fin M) (f : Fin 1024) : EReal :=
  (∑ d : Fin 2048, X (ix2 r d) * W (ix2 d f)) + b (ix1 f)

def col (k : Fin 4) (d : Fin 512) : Fin 2048 := ⟨512 * k.val + d.val, by have := k.isLt; have := d.isLt; omega⟩

def slab {M : Nat} (X : Mat M 2048) (W : Mat 2048 1024) (r : Fin M) (f : Fin 1024) (k : Fin 4) : EReal :=
  ∑ d : Fin 512, X (ix2 r (col k d)) * W (ix2 (col k d) f)

def featK {M : Nat} (X : Mat M 2048) (W : Mat 2048 1024) (b : Row 1024) (r : Fin M) (f : Fin 1024) : EReal :=
  ((((0 + slab X W r f 0) + slab X W r f 1) + slab X W r f 2) + slab X W r f 3) + b (ix1 f)

def sq {M : Nat} (Y : Fin M → Fin 1024 → EReal) (r : Fin M) : EReal := ∑ f : Fin 1024, Y r f * Y r f

def dist (A : Fin 4096 → Fin 1024 → EReal) (B : Fin 2048 → Fin 1024 → EReal) (sA : Fin 4096 → EReal) (sB : Fin 2048 → EReal)
    (i : Fin 4096) (r : Fin 2048) : EReal :=
  (sA i + sB r) - two * ∑ f : Fin 1024, A i f * B r f

def res (A : Fin 4096 → Fin 1024 → EReal) (B : Fin 2048 → Fin 1024 → EReal) (i : Fin 4096) : EReal :=
  Ideal.div (∑ r : Fin 2048, dist A B (sq A) (sq B) i r) bigN

def rrow (h : Fin 2) (r : Fin 1024) : Fin 2048 := ⟨1024 * h.val + r.val, by have := h.isLt; have := r.isLt; omega⟩

def resK (A : Fin 4096 → Fin 1024 → EReal) (B : Fin 2048 → Fin 1024 → EReal) (sA : Fin 4096 → EReal) (sB : Fin 2048 → EReal) (i : Fin 4096) : EReal :=
  ((0 + ∑ r : Fin 1024, dist A B sA sB i (rrow 0 r)) + ∑ r : Fin 1024, dist A B sA sB i (rrow 1 r)) * invN

private theorem sum_blocks {m n N : Nat} (h : m * n = N) (g : Fin N → EReal) :
    ∑ j : Fin N, g j = ∑ k : Fin m, ∑ d : Fin n, g ⟨n * k.val + d.val, by
      have hk := k.isLt; have hd := d.isLt
      calc n * k.val + d.val < n * k.val + n := by omega
        _ = n * (k.val + 1) := by ring
        _ ≤ n * m := Nat.mul_le_mul_left n hk
        _ = N := by rw [Nat.mul_comm, h]⟩ := by
  subst h
  rw [← Fintype.sum_prod_type']
  refine (Fintype.sum_equiv finProdFinEquiv _ _ ?_).symm
  rintro ⟨k, d⟩
  congr 1
  ext
  simp [finProdFinEquiv, Nat.add_comm]

private theorem sum_slabs (g : Fin 2048 → EReal) :
    ∑ j : Fin 2048, g j
      = (((∑ d : Fin 512, g (col 0 d)) + ∑ d : Fin 512, g (col 1 d)) + ∑ d : Fin 512, g (col 2 d))
          + ∑ d : Fin 512, g (col 3 d) := by
  rw [sum_blocks (m := 4) (n := 512) (by norm_num) g, Fin.sum_univ_four]
  rfl

private theorem sum_halves (g : Fin 2048 → EReal) :
    ∑ j : Fin 2048, g j = (∑ r : Fin 1024, g (rrow 0 r)) + ∑ r : Fin 1024, g (rrow 1 r) := by
  rw [sum_blocks (m := 2) (n := 1024) (by norm_num) g, Fin.sum_univ_two]
  rfl

private theorem invN_eq : invN = ((1 / 2048 : ℝ) : EReal) := by
  simp [Ideal.ofBits, Ideal.ieee, -EReal.coe_mul]; norm_num

private theorem bigN_eq : bigN = ((2048 : ℝ) : EReal) := by
  simp [Ideal.ofBits, Ideal.ieee, -EReal.coe_mul]; norm_num

/-- Summing the contraction slab by slab is summing it whole: the four slabs partition the 2048 positions. -/
theorem featK_eq {M : Nat} (X : Mat M 2048) (W : Mat 2048 1024) (b : Row 1024) (r : Fin M) (f : Fin 1024) :
    featK X W b r f = feat X W b r f := by
  unfold featK feat slab
  rw [zero_add, sum_slabs fun j => X (ix2 r j) * W (ix2 j f)]

theorem resK_eq (A : Fin 4096 → Fin 1024 → EReal) (B : Fin 2048 → Fin 1024 → EReal) (i : Fin 4096) :
    resK A B (sq A) (sq B) i = res A B i := by
  unfold resK res
  rw [zero_add, invN_eq, bigN_eq, Ideal.div_coe (by norm_num), sum_halves fun j => dist A B (sq A) (sq B) i j]

/-- The two shapes of the result agree: sums regrouped by associativity and commutativity, and the mean taken as a product with the reciprocal of 2048. -/
theorem kernel_eq_reference (X : Mat 4096 2048) (R : Mat 2048 2048) (W : Mat 2048 1024) (b : Row 1024) (i : Fin 4096) :
    resK (featK X W b) (featK R W b) (sq (featK X W b)) (sq (featK R W b)) i = res (feat X W b) (feat R W b) i := by
  have hA : featK X W b = feat X W b := funext fun r => funext fun f => featK_eq X W b r f
  have hB : featK R W b = feat R W b := funext fun r => funext fun f => featK_eq R W b r f
  rw [hA, hB]
  exact resK_eq _ _ i

end Cert.Spec

end
-- ==== Proof.KI.ValueFold.lean ====
import proofs.«148324_j39651138077344_1_alg».proof.Proof.KI.Frame
import proofs.«148324_j39651138077344_1_alg».proof.Proof.Spec
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Fr

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat)

open Idealize.ShloMosaic.StableHlo

variable (m : (ℓ : Loc nD τ sig) → Buf (Elt Ideal) ℓ) (ρ : Dev nD → PrngReg)

theorem V1_arg0 (c : Dev nD) : V1 m ρ c main_arg0 = m ((c : Thread nD τ).loc main_arg0) :=
  (StableHlo.after_of_forall_not_mem (b := Proc.devRef .tc main_arg0) _ _ (List.forall_iff_forall_mem.mp (by
    simp only [hostOps0, List.Forall, StableHlo.reshape_writes, Finset.mem_singleton]
    exact StableHlo.devRef_ne_of_ne (by decide))))
theorem V1_arg1 (c : Dev nD) : V1 m ρ c main_arg1 = m ((c : Thread nD τ).loc main_arg1) :=
  (StableHlo.after_of_forall_not_mem (b := Proc.devRef .tc main_arg1) _ _ (List.forall_iff_forall_mem.mp (by
    simp only [hostOps0, List.Forall, StableHlo.reshape_writes, Finset.mem_singleton]
    exact StableHlo.devRef_ne_of_ne (by decide))))
theorem V1_arg2 (c : Dev nD) : V1 m ρ c main_arg2 = m ((c : Thread nD τ).loc main_arg2) :=
  (StableHlo.after_of_forall_not_mem (b := Proc.devRef .tc main_arg2) _ _ (List.forall_iff_forall_mem.mp (by
    simp only [hostOps0, List.Forall, StableHlo.reshape_writes, Finset.mem_singleton]
    exact StableHlo.devRef_ne_of_ne (by decide))))
theorem V1_v0 (c : Dev nD) : (V1 m ρ c main_v0 : S1x1024.Idx → EReal)
    = shapeCast S1x1024 (m ((c : Thread nD τ).loc main_arg3)) shapeCasts_S1024_S1x1024 := by
  show StableHlo.after hostOps0 (W0 m ρ c) (Proc.devRef .tc main_v0) = _
  after_results
  rfl

theorem brow_V1 (c : Dev nD) : (fun f : (⟨1, ![1024]⟩ : Shape).Idx => (V1 m ρ c main_v0 : S1x1024.Idx → EReal) (ix2 0 (f 0)))
    = m ((c : Thread nD τ).loc main_arg3) := by
  funext f
  rw [V1_v0]
  exact (shapeCast_a_1a_apply _ _ (0 : Fin 1) (f 0)).trans (congrArg _ (eq_ix1 f).symm)

theorem V2_v1_0 (c : Dev nD) : V2 m ρ c main_v1_0 = (dat0 (V1 m ρ) c).arrAt 3 cfg0.N := W2_arr m ρ c 3
theorem V2_v1_1 (c : Dev nD) : V2 m ρ c main_v1_1 = (dat0 (V1 m ρ) c).arrAt 4 cfg0.N := W2_arr m ρ c 4
theorem V2_arg1 (c : Dev nD) : V2 m ρ c main_arg1 = V1 m ρ c main_arg1 := W2_of_ne m ρ c main_arg1 (by decide)
theorem V2_arg2 (c : Dev nD) : V2 m ρ c main_arg2 = V1 m ρ c main_arg2 :=
  (W2_arr m ρ c 1).trans (((dat0 (V1 m ρ) c).arrAt_in 1 rfl _).trans (A_eq0 (V1 m ρ) c 1))
theorem V2_v0 (c : Dev nD) : V2 m ρ c main_v0 = V1 m ρ c main_v0 :=
  (W2_arr m ρ c 2).trans (((dat0 (V1 m ρ) c).arrAt_in 2 rfl _).trans (A_eq0 (V1 m ρ) c 2))

theorem V3_v2_0 (c : Dev nD) : V3 m ρ c main_v2_0 = (dat1 (V2 m ρ) c).arrAt 3 cfg1.N := W3_arr m ρ c 3
theorem V3_v2_1 (c : Dev nD) : V3 m ρ c main_v2_1 = (dat1 (V2 m ρ) c).arrAt 4 cfg1.N := W3_arr m ρ c 4
theorem V3_v1_0 (c : Dev nD) : V3 m ρ c main_v1_0 = V2 m ρ c main_v1_0 := W3_of_ne m ρ c main_v1_0 (by decide)
theorem V3_v1_1 (c : Dev nD) : V3 m ρ c main_v1_1 = V2 m ρ c main_v1_1 := W3_of_ne m ρ c main_v1_1 (by decide)

theorem V4_v1_0 (c : Dev nD) : V4 m ρ c main_v1_0 = V3 m ρ c main_v1_0 :=
  (StableHlo.after_of_forall_not_mem (b := Proc.devRef .tc main_v1_0) _ _ (List.forall_iff_forall_mem.mp (by
    simp only [hostOps2, List.Forall, StableHlo.reshape_writes, Finset.mem_singleton]
    exact StableHlo.devRef_ne_of_ne (by decide))))
theorem V4_v1_1 (c : Dev nD) : V4 m ρ c main_v1_1 = V3 m ρ c main_v1_1 :=
  (StableHlo.after_of_forall_not_mem (b := Proc.devRef .tc main_v1_1) _ _ (List.forall_iff_forall_mem.mp (by
    simp only [hostOps2, List.Forall, StableHlo.reshape_writes, Finset.mem_singleton]
    exact StableHlo.devRef_ne_of_ne (by decide))))
theorem V4_v2_0 (c : Dev nD) : V4 m ρ c main_v2_0 = V3 m ρ c main_v2_0 :=
  (StableHlo.after_of_forall_not_mem (b := Proc.devRef .tc main_v2_0) _ _ (List.forall_iff_forall_mem.mp (by
    simp only [hostOps2, List.Forall, StableHlo.reshape_writes, Finset.mem_singleton]
    exact StableHlo.devRef_ne_of_ne (by decide))))
theorem V4_v3 (c : Dev nD) : (V4 m ρ c main_v3 : S1x2048.Idx → EReal)
    = shapeCast S1x2048 (V3 m ρ c main_v2_1 : S2048x1.Idx → EReal) shapeCasts_S2048x1_S1x2048 := by
  show StableHlo.after hostOps2 (W3 m ρ c) (Proc.devRef .tc main_v3) = _
  after_results
  rfl

theorem W5_v4 (c : Dev nD) : W5 m ρ c (Proc.devRef .tc main_v4) = (dat2 (V4 m ρ) c).arrAt 4 cfg2.N := W5_arr m ρ c 4
theorem W6_v5 (c : Dev nD) : (W6 m ρ c (Proc.devRef .tc main_v5) : S4096.Idx → EReal)
    = shapeCast S4096 (W5 m ρ c (Proc.devRef .tc main_v4) : S4096x1.Idx → EReal) shapeCasts_S4096x1_S4096 := by
  show StableHlo.after hostOps3 (W5 m ρ c) (Proc.devRef .tc main_v5) = _
  after_results
  rfl

abbrev kfeat {M : Nat} (X : Cert.Spec.Mat M 2048) (c : Dev nD) : Fin M → Fin 1024 → EReal :=
  Cert.Spec.featK X (m ((c : Thread nD τ).loc main_arg2)) (m ((c : Thread nD τ).loc main_arg3))

section
variable
  (h03 : ∀ (V : (c : Dev nD) → (b : Ref sig .tc) → Buf (Elt Ideal) ((c : Thread nD τ).loc b)) (c : Dev nD) (j : S4096x1024.Idx),
    (dat0 (F := Ideal) V c).arrAt 3 cfg0.N j
      = Cert.Spec.featK (V c main_arg0) (V c main_arg2) (fun f => V c main_v0 (ix2 0 (f 0))) (j 0) (j 1))
  (h04 : ∀ (V : (c : Dev nD) → (b : Ref sig .tc) → Buf (Elt Ideal) ((c : Thread nD τ).loc b)) (c : Dev nD) (j : S4096x1.Idx),
    (dat0 (F := Ideal) V c).arrAt 4 cfg0.N j
      = Cert.Spec.sq (Cert.Spec.featK (V c main_arg0) (V c main_arg2) (fun f => V c main_v0 (ix2 0 (f 0)))) (j 0))
  (h13 : ∀ (V : (c : Dev nD) → (b : Ref sig .tc) → Buf (Elt Ideal) ((c : Thread nD τ).loc b)) (c : Dev nD) (j : S2048x1024.Idx),
    (dat1 (F := Ideal) V c).arrAt 3 cfg1.N j
      = Cert.Spec.featK (V c main_arg1) (V c main_arg2) (fun f => V c main_v0 (ix2 0 (f 0))) (j 0) (j 1))
  (h14 : ∀ (V : (c : Dev nD) → (b : Ref sig .tc) → Buf (Elt Ideal) ((c : Thread nD τ).loc b)) (c : Dev nD) (j : S2048x1.Idx),
    (dat1 (F := Ideal) V c).arrAt 4 cfg1.N j
      = Cert.Spec.sq (Cert.Spec.featK (V c main_arg1) (V c main_arg2) (fun f => V c main_v0 (ix2 0 (f 0)))) (j 0))
  (h24 : ∀ (V : (c : Dev nD) → (b : Ref sig .tc) → Buf (Elt Ideal) ((c : Thread nD τ).loc b)) (c : Dev nD) (j : S4096x1.Idx),
    (dat2 (F := Ideal) V c).arrAt 4 cfg2.N j
      = Cert.Spec.resK (fun i f => V c main_v1_0 (ix2 i f)) (fun r f => V c main_v2_0 (ix2 r f))
          (fun i => V c main_v1_1 (ix2 i 0)) (fun r => V c main_v3 (ix2 0 r)) (j 0))

include h03 in
theorem in_feat (c : Dev nD) : (fun (i : Fin 4096) (f : Fin 1024) => (V4 m ρ c main_v1_0 : S4096x1024.Idx → EReal) (ix2 i f))
    = kfeat m (m ((c : Thread nD τ).loc main_arg0)) c := by
  funext i f
  rw [V4_v1_0, V3_v1_0, V2_v1_0]
  refine (h03 (V1 m ρ) c (ix2 i f)).trans ?_
  rw [V1_arg0, V1_arg2, brow_V1]

include h04 in
theorem in_sq (c : Dev nD) : (fun (i : Fin 4096) => (V4 m ρ c main_v1_1 : S4096x1.Idx → EReal) (ix2 i 0))
    = Cert.Spec.sq (kfeat m (m ((c : Thread nD τ).loc main_arg0)) c) := by
  funext i
  rw [V4_v1_1, V3_v1_1, V2_v1_1]
  refine (h04 (V1 m ρ) c (ix2 i 0)).trans ?_
  rw [V1_arg0, V1_arg2, brow_V1]

include h13 in
theorem ref_feat (c : Dev nD) : (fun (r : Fin 2048) (f : Fin 1024) => (V4 m ρ c main_v2_0 : S2048x1024.Idx → EReal) (ix2 r f))
    = kfeat m (m ((c : Thread nD τ).loc main_arg1)) c := by
  funext r f
  rw [V4_v2_0, V3_v2_0]
  refine (h13 (V2 m ρ) c (ix2 r f)).trans ?_
  rw [V2_arg1, V2_arg2, V2_v0, V1_arg1, V1_arg2, brow_V1]

include h14 in
theorem ref_sq (c : Dev nD) : (fun (r : Fin 2048) => (V4 m ρ c main_v3 : S1x2048.Idx → EReal) (ix2 0 r))
    = Cert.Spec.sq (kfeat m (m ((c : Thread nD τ).loc main_arg1)) c) := by
  funext r
  rw [V4_v3]
  refine (shapeCast_apply _ _ (ix2 (0 : Fin 1) r) (ix2 r (0 : Fin 1)) (by
    rw [Shape.rowMajor_val_two, Shape.rowMajor_val_two]
    show r.val * 1 + 0 = 0 * 2048 + r.val
    omega)).trans ?_
  rw [V3_v2_1]
  refine (h14 (V2 m ρ) c (ix2 r 0)).trans ?_
  rw [V2_arg1, V2_arg2, V2_v0, V1_arg1, V1_arg2, brow_V1]

include h03 h04 h13 h14 h24 in
theorem kernel_value_of (c : Dev nD) (i : S4096.Idx) :
    (W6 m ρ c (Proc.devRef .tc main_v5) : S4096.Idx → EReal) i
      = Cert.Spec.resK (kfeat m (m ((c : Thread nD τ).loc main_arg0)) c) (kfeat m (m ((c : Thread nD τ).loc main_arg1)) c)
          (Cert.Spec.sq (kfeat m (m ((c : Thread nD τ).loc main_arg0)) c)) (Cert.Spec.sq (kfeat m (m ((c : Thread nD τ).loc main_arg1)) c)) (i 0) := by
  rw [W6_v5]
  refine (shapeCast_apply _ _ i (ix2 (i 0) (0 : Fin 1)) (by
    rw [Shape.rowMajor_val_two, Shape.rowMajor_val_one]
    show (i 0).val * 1 + 0 = (i 0).val
    omega)).trans ?_
  rw [W5_v4]
  refine (h24 (V4 m ρ) c (ix2 (i 0) 0)).trans ?_
  rw [in_feat m ρ h03 c, in_sq m ρ h04 c, ref_feat m ρ h13 c, ref_sq m ρ h14 c]

end

end Cert.KernelIdeal.Fr

end
-- ==== Proof.KI.V0Pieces.lean ====
import proofs.«148324_j39651138077344_1_alg».proof.Proof.KI.R0Dat
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Fr

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat)

section
variable {F : FTy → Type} [FloatOps F] (P : Pt0 F) (xs : Vec F S1024x1024 .f32)

theorem hzR0 : (![0, 0] : Fin 2 → Nat) = fun _ => 0 := funext fun a => by
  match a with
  | ⟨0, _⟩ => rfl
  | ⟨1, _⟩ => rfl

/-- Every store writes a whole buffer and every load reads one: a buffer ends at its last store's payload, and a load after a store reads that payload. -/
theorem soutR0_A (hc0 : cond0_0 P.i) (hc1 : ¬cond0_1 P.i) :
    (P.outA hc0 hc1).2.2 = k0_pay2 (k0_pay1 (F := F)) P.x0 P.x1 := by
  have hcov := P.scoverA hc0 hc1
  obtain ⟨c, i, arg2, harg2, arg3, harg3, arg4, harg4, arg5, harg5, arg6, harg6, arg7, harg7, x0, x1, x2⟩ := P
  unfold Pt0.outA Pt0.runA rd0 at *
  dsimp only at hcov ⊢
  rw [View.read_writes_eq_canon _ _ _ hcov]
  unfold kernelRun0_A
  dsimp only
  sl_unfold_words
  rw [View.canon_cons_unit_zero (S := S1024x1024) hzR0, View.readCov_unit_zero (S := S1024x1024) _ hzR0]
  simp only [View.readAt_eq_ld, harg2.read_unread, harg3.read_unread, harg4.read_unread, harg7.read_unread, View.ld_unit_zero (S := S1024x1024) hzR0, View.ld_unit_zero (S := S1024x512) hzR0, View.ld_unit_zero (S := S512x1024) hzR0, View.ld_unit_zero (S := S1x1024) hzR0]

theorem soutR0_B (hc0 : ¬cond0_0 P.i) (hc1 : ¬cond0_1 P.i) :
    (P.outB xs hc0 hc1).2.2 = k0_pay2 xs P.x0 P.x1 := by
  have hcov := P.scoverB xs hc0 hc1
  obtain ⟨c, i, arg2, harg2, arg3, harg3, arg4, harg4, arg5, harg5, arg6, harg6, arg7, harg7, x0, x1, x2⟩ := P
  unfold Pt0.outB Pt0.runB rd0 at *
  dsimp only at hcov ⊢
  rw [View.read_writes_eq_canon _ _ _ hcov]
  unfold kernelRun0_B
  dsimp only
  sl_unfold_words
  rw [View.canon_unit_zero hzR0]
  simp only [View.readAt_eq_ld, harg2.read_unread, harg3.read_unread, harg4.read_unread, harg7.read_unread, View.ld_unit_zero (S := S1024x1024) hzR0, View.ld_unit_zero (S := S1024x512) hzR0, View.ld_unit_zero (S := S512x1024) hzR0, View.ld_unit_zero (S := S1x1024) hzR0]

theorem soutR0_C (hc0 : ¬cond0_0 P.i) (hc1 : cond0_1 P.i) :
    (P.outC xs hc0 hc1).2.2 = k0_pay2 xs P.x0 P.x1 := by
  have hcov := P.scoverC xs hc0 hc1
  obtain ⟨c, i, arg2, harg2, arg3, harg3, arg4, harg4, arg5, harg5, arg6, harg6, arg7, harg7, x0, x1, x2⟩ := P
  unfold Pt0.outC Pt0.runC rd0 at *
  dsimp only at hcov ⊢
  rw [View.read_writes_eq_canon _ _ _ hcov]
  unfold kernelRun0_C
  dsimp only
  sl_unfold_words
  rw [View.canon_unit_zero hzR0]
  simp only [View.readAt_eq_ld, harg2.read_unread, harg3.read_unread, harg4.read_unread, harg7.read_unread, View.ld_unit_zero (S := S1024x1024) hzR0, View.ld_unit_zero (S := S1024x512) hzR0, View.ld_unit_zero (S := S512x1024) hzR0, View.ld_unit_zero (S := S1x1024) hzR0]

theorem outR0_C3 (hc0 : ¬cond0_0 P.i) (hc1 : cond0_1 P.i) :
    (P.outC xs hc0 hc1).1 = k0_pay4 (k0_pay2 xs P.x0 P.x1) P.x2 := by
  have hcov := P.coverC3 xs hc0 hc1
  obtain ⟨c, i, arg2, harg2, arg3, harg3, arg4, harg4, arg5, harg5, arg6, harg6, arg7, harg7, x0, x1, x2⟩ := P
  unfold Pt0.outC Pt0.runC rd0 at *
  dsimp only at hcov ⊢
  rw [View.read_writes_eq_canon _ _ _ hcov]
  unfold kernelRun0_C
  dsimp only
  sl_unfold_words
  rw [View.canon_unit_zero hzR0]
  simp only [View.readCov_unit_zero (S := S1024x1024) _ hzR0, View.readAt_eq_ld, harg2.read_unread, harg3.read_unread, harg4.read_unread, harg7.read_unread, View.ld_unit_zero (S := S1024x1024) hzR0, View.ld_unit_zero (S := S1024x512) hzR0, View.ld_unit_zero (S := S512x1024) hzR0, View.ld_unit_zero (S := S1x1024) hzR0]

theorem outR0_C4 (hc0 : ¬cond0_0 P.i) (hc1 : cond0_1 P.i) :
    (P.outC xs hc0 hc1).2.1 = k0_pay5 (k0_pay2 xs P.x0 P.x1) P.x2 := by
  have hcov := P.coverC4 xs hc0 hc1
  obtain ⟨c, i, arg2, harg2, arg3, harg3, arg4, harg4, arg5, harg5, arg6, harg6, arg7, harg7, x0, x1, x2⟩ := P
  unfold Pt0.outC Pt0.runC rd0 at *
  dsimp only at hcov ⊢
  rw [View.read_writes_eq_canon _ _ _ hcov]
  unfold kernelRun0_C
  dsimp only
  sl_unfold_words
  rw [View.canon_unit_zero hzR0]
  simp only [View.readCov_unit_zero (S := S1024x1024) _ hzR0, View.readAt_eq_ld, harg2.read_unread, harg3.read_unread, harg4.read_unread, harg7.read_unread, View.ld_unit_zero (S := S1024x1024) hzR0, View.ld_unit_zero (S := S1024x512) hzR0, View.ld_unit_zero (S := S512x1024) hzR0, View.ld_unit_zero (S := S1x1024) hzR0]

end

theorem mmR0_lhs_0 (i : S1024x1024.Idx) (q : dot_S1024x512_S512x1024_S1024x1024_1_0_0_1_n_n.contr.Idx) :
    (dot_S1024x512_S512x1024_S1024x1024_1_0_0_1_n_n.lhsIdx i q 0).val = (i 0).val := by
  unfold DotDims.lhsIdx
  rw [dif_neg (show ¬(0 : Fin S1024x512.rank) ∈ dot_S1024x512_S512x1024_S1024x1024_1_0_0_1_n_n.lhsBatch by decide), dif_pos (show (0 : Fin S1024x512.rank) ∈ dot_S1024x512_S512x1024_S1024x1024_1_0_0_1_n_n.lhsNonContracting by decide)]
  rfl
theorem mmR0_lhs_1 (i : S1024x1024.Idx) (q : dot_S1024x512_S512x1024_S1024x1024_1_0_0_1_n_n.contr.Idx) :
    (dot_S1024x512_S512x1024_S1024x1024_1_0_0_1_n_n.lhsIdx i q 1).val = (q ⟨0, by decide⟩).val :=
  dot_S1024x512_S512x1024_S1024x1024_1_0_0_1_n_n.lhsIdx_val_of_single rfl i q
theorem mmR0_rhs_0 (i : S1024x1024.Idx) (q : dot_S1024x512_S512x1024_S1024x1024_1_0_0_1_n_n.contr.Idx) :
    (dot_S1024x512_S512x1024_S1024x1024_1_0_0_1_n_n.rhsIdx i q 0).val = (q ⟨0, by decide⟩).val :=
  dot_S1024x512_S512x1024_S1024x1024_1_0_0_1_n_n.rhsIdx_val_of_single rfl i q
theorem mmR0_rhs_1 (i : S1024x1024.Idx) (q : dot_S1024x512_S512x1024_S1024x1024_1_0_0_1_n_n.contr.Idx) :
    (dot_S1024x512_S512x1024_S1024x1024_1_0_0_1_n_n.rhsIdx i q 1).val = (i 1).val := by
  unfold DotDims.rhsIdx
  rw [dif_neg (show ¬(1 : Fin S512x1024.rank) ∈ dot_S1024x512_S512x1024_S1024x1024_1_0_0_1_n_n.rhsBatch by decide), dif_pos (show (1 : Fin S512x1024.rank) ∈ dot_S1024x512_S512x1024_S1024x1024_1_0_0_1_n_n.rhsNonContracting by decide)]
  rfl

theorem mmR0_at (x : FVec Ideal S1024x512 .bf16) (w : FVec Ideal S512x1024 .bf16) (p q : Fin 1024) :
    matmul dot_S1024x512_S512x1024_S1024x1024_1_0_0_1_n_n none x w (constant (F := Ideal) S1024x1024 .f32 0x00000000#32) (ix2 p q)
      = ∑ d : Fin 512, x (ix2 p d) * w (ix2 d q) := by
  simp only [matmul]
  rw [Ideal.matmul_constant_zero_apply, ← Equiv.sum_comp (ValueIdx.contrEquiv1 dot_S1024x512_S512x1024_S1024x1024_1_0_0_1_n_n 512 rfl rfl).symm]
  refine Finset.sum_congr rfl fun k _ => ?_
  have hk := ValueIdx.contrEquiv1_symm_val dot_S1024x512_S512x1024_S1024x1024_1_0_0_1_n_n 512 rfl rfl k
  have el : dot_S1024x512_S512x1024_S1024x1024_1_0_0_1_n_n.lhsIdx (ix2 p q) ((ValueIdx.contrEquiv1 dot_S1024x512_S512x1024_S1024x1024_1_0_0_1_n_n 512 rfl rfl).symm k) = ix2 p k := funext fun a => Fin.ext (by
    match a with
    | ⟨0, _⟩ => exact mmR0_lhs_0 _ _
    | ⟨1, _⟩ => exact (mmR0_lhs_1 _ _).trans hk)
  have er : dot_S1024x512_S512x1024_S1024x1024_1_0_0_1_n_n.rhsIdx (ix2 p q) ((ValueIdx.contrEquiv1 dot_S1024x512_S512x1024_S1024x1024_1_0_0_1_n_n 512 rfl rfl).symm k) = ix2 k q := funext fun a => Fin.ext (by
    match a with
    | ⟨0, _⟩ => exact (mmR0_rhs_0 _ _).trans hk
    | ⟨1, _⟩ => exact mmR0_rhs_1 _ _)
  rw [el, er]

theorem payR0_1_at (p q : Fin 1024) : (k0_pay1 (F := Ideal)) (ix2 p q) = 0 := by
  unfold k0_pay1
  refine (congrFun (shapeCast_self _ _) (ix2 p q)).trans ?_
  exact Ideal.ofBits_zero_f32

theorem payR0_2_at (s : Vec Ideal S1024x1024 .f32) (x : Vec Ideal S1024x512 .f32) (w : Vec Ideal S512x1024 .f32) (p q : Fin 1024) :
    k0_pay2 (F := Ideal) s x w (ix2 p q) = s (ix2 p q) + ∑ d : Fin 512, x (ix2 p d) * w (ix2 d q) := by
  unfold k0_pay2
  refine (congrFun (shapeCast_self _ _) (ix2 p q)).trans ?_
  exact congrArg (s (ix2 p q) + ·) (mmR0_at (truncf .bf16 x bitsLt_bf16_f32) (truncf .bf16 w bitsLt_bf16_f32) p q)

theorem payR0_3_at (a : Vec Ideal S1024x1024 .f32) (b : Vec Ideal S1x1024 .f32) (p q : Fin 1024) :
    k0_pay3 (F := Ideal) a b (ix2 p q) = a (ix2 p q) + b (ix2 0 q) := by
  unfold k0_pay3
  refine congrArg (a (ix2 p q) + ·) ?_
  refine (broadcastTo_1b_ab_apply _ _ p q).trans ?_
  exact congrFun (shapeCast_self b _) (ix2 0 q)

theorem payR0_4_at (a : Vec Ideal S1024x1024 .f32) (b : Vec Ideal S1x1024 .f32) (p q : Fin 1024) :
    k0_pay4 (F := Ideal) a b (ix2 p q) = k0_pay3 (F := Ideal) a b (ix2 p q) := rfl

theorem payR0_5_at (a : Vec Ideal S1024x1024 .f32) (b : Vec Ideal S1x1024 .f32) (p : Fin 1024) (u : Fin 1) :
    k0_pay5 (F := Ideal) a b (ix2 p u) = ∑ q : Fin 1024, k0_pay3 (F := Ideal) a b (ix2 p q) * k0_pay3 (F := Ideal) a b (ix2 p q) := by
  unfold k0_pay5
  refine (shapeCast_apply _ _ (ix2 p u) (ix1 p) ?_).trans ?_
  · rw [Shape.rowMajor_val_two, Shape.rowMajor_val_one]
    show p.val = p.val * 1 + u.val
    omega
  · refine (Ideal.multiReduction_add_single _ _ reduces_S1024x1024_S1024 _ _ (ix1 p)).trans ?_
    show ∑ q : Fin 1024, _ = _
    refine Finset.sum_congr rfl fun q _ => ?_
    have e : reduces_S1024x1024_S1024.lift (ix1 p) q = ix2 p q := funext fun a => Fin.ext (by
      match a with
      | ⟨0, _⟩ => rfl
      | ⟨1, _⟩ => rfl)
    show (mulf (k0_pay3 (F := Ideal) a b) (k0_pay3 (F := Ideal) a b)) (reduces_S1024x1024_S1024.lift (ix1 p) q) = _
    rw [e]
    rfl

end Cert.KernelIdeal.Fr

end
-- ==== Proof.KI.V0.lean ====
import proofs.«148324_j39651138077344_1_alg».proof.Proof.KI.V0Pieces
import proofs.«148324_j39651138077344_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Fr

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat)

def brow (B : S1x1024.Idx → EReal) : Cert.Spec.Row 1024 := fun f => B (ix2 0 (f 0))

theorem idxR0_facts : ∀ t : Fin cfg0.N,
    win0_0.index t (0 : Fin 2) = t.val / 4 ∧ win0_0.index t (1 : Fin 2) = t.val % 4
    ∧ win0_1.index t (0 : Fin 2) = t.val % 4 ∧ win0_1.index t (1 : Fin 2) = 0
    ∧ win0_2.index t (0 : Fin 2) = 0 ∧ win0_2.index t (1 : Fin 2) = 0
    ∧ win0_3.index t (0 : Fin 2) = t.val / 4 ∧ win0_3.index t (1 : Fin 2) = 0
    ∧ win0_4.index t (0 : Fin 2) = t.val / 4 ∧ win0_4.index t (1 : Fin 2) = 0 :=
  (by decide +kernel : ∀ t : Fin grid0.N, _)

theorem coverR0_3 (i : S4096x1024.Idx) :
    ∃ t : Fin cfg0.N, (cfg0.win 3).flush t = true ∧ i ∈ ((cfg0.win 3).blk t).view.set := by
  have hN : cfg0.N = 16 := N_0
  have h0 : (i 0).val < 4096 := (i 0).isLt
  have h1 : (i 1).val < 1024 := (i 1).isLt
  have ht : 4 * ((i 0).val / 1024) + 3 < cfg0.N := by rw [hN]; omega
  refine ⟨⟨4 * ((i 0).val / 1024) + 3, ht⟩, (flush0_3 _).mpr (by dsimp only; omega), ?_⟩
  obtain ⟨-, -, -, -, -, -, e0, e1, -⟩ := idxR0_facts ⟨4 * ((i 0).val / 1024) + 3, ht⟩
  dsimp only at e0 e1
  show i ∈ ((View.whole main_v1_0).slice (win0_3.rect ⟨4 * ((i 0).val / 1024) + 3, ht⟩)).set
  rw [View.set_slice_whole, Rect.mem_set_unit]
  intro a
  match a with
  | ⟨0, _⟩ =>
    show win0_3.index ⟨4 * ((i 0).val / 1024) + 3, ht⟩ (0 : Fin 2) * 1024 ≤ (i 0).val ∧ (i 0).val < win0_3.index ⟨4 * ((i 0).val / 1024) + 3, ht⟩ (0 : Fin 2) * 1024 + 1024
    rw [e0]; omega
  | ⟨1, _⟩ =>
    show win0_3.index ⟨4 * ((i 0).val / 1024) + 3, ht⟩ (1 : Fin 2) * 1024 ≤ (i 1).val ∧ (i 1).val < win0_3.index ⟨4 * ((i 0).val / 1024) + 3, ht⟩ (1 : Fin 2) * 1024 + 1024
    rw [e1]; omega

theorem coverR0_4 (i : S4096x1.Idx) :
    ∃ t : Fin cfg0.N, (cfg0.win 4).flush t = true ∧ i ∈ ((cfg0.win 4).blk t).view.set := by
  have hN : cfg0.N = 16 := N_0
  have h0 : (i 0).val < 4096 := (i 0).isLt
  have h1 : (i 1).val < 1 := (i 1).isLt
  have ht : 4 * ((i 0).val / 1024) + 3 < cfg0.N := by rw [hN]; omega
  refine ⟨⟨4 * ((i 0).val / 1024) + 3, ht⟩, (flush0_4 _).mpr (by dsimp only; omega), ?_⟩
  obtain ⟨-, -, -, -, -, -, -, -, e0, e1⟩ := idxR0_facts ⟨4 * ((i 0).val / 1024) + 3, ht⟩
  dsimp only at e0 e1
  show i ∈ ((View.whole main_v1_1).slice (win0_4.rect ⟨4 * ((i 0).val / 1024) + 3, ht⟩)).set
  rw [View.set_slice_whole, Rect.mem_set_unit]
  intro a
  match a with
  | ⟨0, _⟩ =>
    show win0_4.index ⟨4 * ((i 0).val / 1024) + 3, ht⟩ (0 : Fin 2) * 1024 ≤ (i 0).val ∧ (i 0).val < win0_4.index ⟨4 * ((i 0).val / 1024) + 3, ht⟩ (0 : Fin 2) * 1024 + 1024
    rw [e0]; omega
  | ⟨1, _⟩ =>
    show win0_4.index ⟨4 * ((i 0).val / 1024) + 3, ht⟩ (1 : Fin 2) * 1 ≤ (i 1).val ∧ (i 1).val < win0_4.index ⟨4 * ((i 0).val / 1024) + 3, ht⟩ (1 : Fin 2) * 1 + 1
    rw [e1]; omega

section
variable (V : (c : Dev nD) → (b : Ref sig .tc) → Buf (Elt Ideal) ((c : Thread nD τ).loc b))

theorem xblkR0_at (c : Dev nD) (t : Fin cfg0.N) (p : Fin 1024) (d : Fin 512) (r : Fin 4096) (k : Fin 2048)
    (hr : r.val = 1024 * (t.val / 4) + p.val) (hk : k.val = 512 * (t.val % 4) + d.val) :
    iblk0 V c 0 t (ix2 p d) = V c main_arg0 (ix2 r k) := by
  obtain ⟨e0, e1, -⟩ := idxR0_facts t
  unfold iblk0
  rw [View.read_apply]
  show V c main_arg0 _ = V c main_arg0 _
  refine congrArg (V c main_arg0) (funext fun a => Fin.ext ?_)
  match a with
  | ⟨0, _⟩ => show win0_0.index t (0 : Fin 2) * 1024 + 1 * p.val = r.val; rw [e0, hr]; omega
  | ⟨1, _⟩ => show win0_0.index t (1 : Fin 2) * 512 + 1 * d.val = k.val; rw [e1, hk]; omega

theorem wblkR0_at (c : Dev nD) (t : Fin cfg0.N) (d : Fin 512) (q : Fin 1024) (k : Fin 2048) (f : Fin 1024)
    (hk : k.val = 512 * (t.val % 4) + d.val) (hf : f.val = q.val) :
    iblk0 V c 1 t (ix2 d q) = V c main_arg2 (ix2 k f) := by
  obtain ⟨-, -, e0, e1, -⟩ := idxR0_facts t
  unfold iblk0
  rw [View.read_apply]
  show V c main_arg2 _ = V c main_arg2 _
  refine congrArg (V c main_arg2) (funext fun a => Fin.ext ?_)
  match a with
  | ⟨0, _⟩ => show win0_1.index t (0 : Fin 2) * 512 + 1 * d.val = k.val; rw [e0, hk]; omega
  | ⟨1, _⟩ => show win0_1.index t (1 : Fin 2) * 1024 + 1 * q.val = f.val; rw [e1, hf]; omega

theorem bblkR0_at (c : Dev nD) (t : Fin cfg0.N) (u : Fin 1) (q : Fin 1024) (f : Fin 1024) (hf : f.val = q.val) :
    iblk0 V c 2 t (ix2 u q) = V c main_v0 (ix2 0 f) := by
  obtain ⟨-, -, -, -, e0, e1, -⟩ := idxR0_facts t
  unfold iblk0
  rw [View.read_apply]
  show V c main_v0 _ = V c main_v0 _
  refine congrArg (V c main_v0) (funext fun a => Fin.ext ?_)
  match a with
  | ⟨0, _⟩ => show win0_2.index t (0 : Fin 2) * 1 + 1 * u.val = 0; rw [e0]; omega
  | ⟨1, _⟩ => show win0_2.index t (1 : Fin 2) * 1024 + 1 * q.val = f.val; rw [e1, hf]; omega

theorem stepR0_at (c : Dev nD) (t : Fin cfg0.N) (s : Vec Ideal S1024x1024 .f32) (p q : Fin 1024) (r : Fin 4096) (k : Fin 4)
    (hr : r.val = 1024 * (t.val / 4) + p.val) (hk : k.val = t.val % 4) :
    k0_pay2 (F := Ideal) s (iblk0 V c 0 t) (iblk0 V c 1 t) (ix2 p q)
      = s (ix2 p q) + Cert.Spec.slab (V c main_arg0) (V c main_arg2) r q k := by
  refine (payR0_2_at s (iblk0 V c 0 t) (iblk0 V c 1 t) p q).trans ?_
  refine congrArg (s (ix2 p q) + ·) ?_
  unfold Cert.Spec.slab
  refine Finset.sum_congr rfl fun d _ => ?_
  have hcol : (Cert.Spec.col k d).val = 512 * (t.val % 4) + d.val := by
    show 512 * k.val + d.val = _
    rw [hk]
  exact congrArg₂ (· * ·) (xblkR0_at V c t p d r (Cert.Spec.col k d) hr hcol) (wblkR0_at V c t d q (Cert.Spec.col k d) q hcol rfl)

theorem accR0_0 (c : Dev nD) (t : Fin cfg0.N) (hm : t.val % 4 = 0) (p q : Fin 1024) (r : Fin 4096)
    (hr : r.val = 1024 * (t.val / 4) + p.val) :
    (outsAt0 V c t.val t.isLt).2.2 (ix2 p q) = 0 + Cert.Spec.slab (V c main_arg0) (V c main_arg2) r q 0 := by
  have h0 : t.val % 4 = 0 := hm
  have h1 : ¬t.val % 4 = 3 := by omega
  rw [outsAt0_A V c t h0 h1]
  refine (congrFun (soutR0_A (F := Ideal) (pt0 V c t) _ _) (ix2 p q)).trans ?_
  refine (stepR0_at V c t (k0_pay1 (F := Ideal)) p q r 0 hr (by rw [hm]; rfl)).trans ?_
  exact congrArg (· + Cert.Spec.slab (V c main_arg0) (V c main_arg2) r q 0) (payR0_1_at p q)

theorem accR0_1 (c : Dev nD) (t : Fin cfg0.N) (hm : t.val % 4 = 1) (p q : Fin 1024) (r : Fin 4096)
    (hr : r.val = 1024 * (t.val / 4) + p.val) :
    (outsAt0 V c t.val t.isLt).2.2 (ix2 p q)
      = (0 + Cert.Spec.slab (V c main_arg0) (V c main_arg2) r q 0) + Cert.Spec.slab (V c main_arg0) (V c main_arg2) r q 1 := by
  have h0 : ¬t.val % 4 = 0 := by omega
  have h1 : ¬t.val % 4 = 3 := by omega
  rw [outsAt0_B V c t h0 h1]
  refine (congrFun (soutR0_B (F := Ideal) (pt0 V c t) (prev0 V c t) _ _) (ix2 p q)).trans ?_
  refine (stepR0_at V c t (prev0 V c t) p q r 1 hr (by rw [hm]; rfl)).trans ?_
  refine congrArg (· + Cert.Spec.slab (V c main_arg0) (V c main_arg2) r q 1) ?_
  exact accR0_0 V c ⟨t.val - 1, Nat.lt_of_le_of_lt (Nat.sub_le _ _) t.isLt⟩ (by dsimp only; omega) p q r (by dsimp only; omega)

theorem accR0_2 (c : Dev nD) (t : Fin cfg0.N) (hm : t.val % 4 = 2) (p q : Fin 1024) (r : Fin 4096)
    (hr : r.val = 1024 * (t.val / 4) + p.val) :
    (outsAt0 V c t.val t.isLt).2.2 (ix2 p q)
      = ((0 + Cert.Spec.slab (V c main_arg0) (V c main_arg2) r q 0) + Cert.Spec.slab (V c main_arg0) (V c main_arg2) r q 1) + Cert.Spec.slab (V c main_arg0) (V c main_arg2) r q 2 := by
  have h0 : ¬t.val % 4 = 0 := by omega
  have h1 : ¬t.val % 4 = 3 := by omega
  rw [outsAt0_B V c t h0 h1]
  refine (congrFun (soutR0_B (F := Ideal) (pt0 V c t) (prev0 V c t) _ _) (ix2 p q)).trans ?_
  refine (stepR0_at V c t (prev0 V c t) p q r 2 hr (by rw [hm]; rfl)).trans ?_
  refine congrArg (· + Cert.Spec.slab (V c main_arg0) (V c main_arg2) r q 2) ?_
  exact accR0_1 V c ⟨t.val - 1, Nat.lt_of_le_of_lt (Nat.sub_le _ _) t.isLt⟩ (by dsimp only; omega) p q r (by dsimp only; omega)

theorem featR0_at (c : Dev nD) (t : Fin cfg0.N) (hm : t.val % 4 = 3) (p q : Fin 1024) (r : Fin 4096) (f : Fin 1024)
    (hr : r.val = 1024 * (t.val / 4) + p.val) (hf : f.val = q.val) :
    k0_pay3 (F := Ideal) (k0_pay2 (F := Ideal) (prev0 V c t) (iblk0 V c 0 t) (iblk0 V c 1 t)) (iblk0 V c 2 t) (ix2 p q)
      = Cert.Spec.featK (V c main_arg0) (V c main_arg2) (brow (V c main_v0)) r f := by
  obtain rfl : f = q := Fin.ext hf
  refine (payR0_3_at (k0_pay2 (F := Ideal) (prev0 V c t) (iblk0 V c 0 t) (iblk0 V c 1 t)) (iblk0 V c 2 t) p f).trans ?_
  unfold Cert.Spec.featK
  refine congrArg₂ (· + ·) ?_ (bblkR0_at V c t 0 f f rfl)
  refine (stepR0_at V c t (prev0 V c t) p f r 3 hr (by rw [hm]; rfl)).trans ?_
  refine congrArg (· + Cert.Spec.slab (V c main_arg0) (V c main_arg2) r f 3) ?_
  exact accR0_2 V c ⟨t.val - 1, Nat.lt_of_le_of_lt (Nat.sub_le _ _) t.isLt⟩ (by dsimp only; omega) p f r (by dsimp only; omega)

theorem outR0_3_at (c : Dev nD) (t : Fin cfg0.N) (hm : t.val % 4 = 3) (p q : Fin 1024) (r : Fin 4096) (f : Fin 1024)
    (hr : r.val = 1024 * (t.val / 4) + p.val) (hf : f.val = q.val) :
    (outsAt0 V c t.val t.isLt).1 (ix2 p q) = Cert.Spec.featK (V c main_arg0) (V c main_arg2) (brow (V c main_v0)) r f := by
  have h0 : ¬t.val % 4 = 0 := by omega
  have h1 : t.val % 4 = 3 := hm
  rw [outsAt0_C V c t h0 h1]
  refine (congrFun (outR0_C3 (F := Ideal) (pt0 V c t) (prev0 V c t) _ _) (ix2 p q)).trans ?_
  exact featR0_at V c t hm p q r f hr hf

theorem outR0_4_at (c : Dev nD) (t : Fin cfg0.N) (hm : t.val % 4 = 3) (p : Fin 1024) (u : Fin 1) (r : Fin 4096)
    (hr : r.val = 1024 * (t.val / 4) + p.val) :
    (outsAt0 V c t.val t.isLt).2.1 (ix2 p u) = Cert.Spec.sq (Cert.Spec.featK (V c main_arg0) (V c main_arg2) (brow (V c main_v0))) r := by
  have h0 : ¬t.val % 4 = 0 := by omega
  have h1 : t.val % 4 = 3 := hm
  rw [outsAt0_C V c t h0 h1]
  refine (congrFun (outR0_C4 (F := Ideal) (pt0 V c t) (prev0 V c t) _ _) (ix2 p u)).trans ?_
  refine (payR0_5_at (k0_pay2 (F := Ideal) (prev0 V c t) (iblk0 V c 0 t) (iblk0 V c 1 t)) (iblk0 V c 2 t) p u).trans ?_
  unfold Cert.Spec.sq
  refine Finset.sum_congr rfl fun q _ => ?_
  exact congrArg₂ (· * ·) (featR0_at V c t hm p q r q hr rfl) (featR0_at V c t hm p q r q hr rfl)

abbrev featArrR0 (c : Dev nD) : S4096x1024.Idx → EReal :=
  fun j => Cert.Spec.featK (V c main_arg0) (V c main_arg2) (brow (V c main_v0)) (j 0) (j 1)

abbrev sqArrR0 (c : Dev nD) : S4096x1.Idx → EReal :=
  fun j => Cert.Spec.sq (Cert.Spec.featK (V c main_arg0) (V c main_arg2) (brow (V c main_v0))) (j 0)

theorem flushedR0_3 (c : Dev nD) (t : Fin cfg0.N) (hf : (cfg0.win 3).flush t = true) :
    (dat0 (F := Ideal) V c).flushed 3 t = ((cfg0.win 3).blk t).view.read (Elt Ideal) (featArrR0 V c) := by
  have hm : t.val % 4 = 3 := (flush0_3 t).mp hf
  obtain ⟨-, -, -, -, -, -, e0, e1, -⟩ := idxR0_facts t
  show (cfg0.win 3).cut (grid0.coords t) ((dat0 (F := Ideal) V c).after 3 t) = _
  rw [after0_3]
  funext y
  obtain ⟨p, q, rfl⟩ : ∃ (p q : Fin 1024), y = ix2 p q := ⟨y 0, y 1, eq_ix2 y⟩
  rw [View.read_apply]
  refine (outR0_3_at V c t hm p q _ _ ?_ ?_).trans rfl
  · show win0_3.index t (0 : Fin 2) * 1024 + 1 * p.val = _
    rw [e0]; omega
  · show win0_3.index t (1 : Fin 2) * 1024 + 1 * q.val = _
    rw [e1]; omega

theorem flushedR0_4 (c : Dev nD) (t : Fin cfg0.N) (hf : (cfg0.win 4).flush t = true) :
    (dat0 (F := Ideal) V c).flushed 4 t = ((cfg0.win 4).blk t).view.read (Elt Ideal) (sqArrR0 V c) := by
  have hm : t.val % 4 = 3 := (flush0_4 t).mp hf
  obtain ⟨-, -, -, -, -, -, -, -, e0, e1⟩ := idxR0_facts t
  show (cfg0.win 4).cut (grid0.coords t) ((dat0 (F := Ideal) V c).after 4 t) = _
  rw [after0_4]
  funext y
  obtain ⟨p, u, rfl⟩ : ∃ (p : Fin 1024) (u : Fin 1), y = ix2 p u := ⟨y 0, y 1, eq_ix2 y⟩
  rw [View.read_apply]
  refine (outR0_4_at V c t hm p u _ ?_).trans rfl
  show win0_4.index t (0 : Fin 2) * 1024 + 1 * p.val = _
  rw [e0]; omega

theorem arr0_3 (c : Dev nD) (j : S4096x1024.Idx) :
    (dat0 (F := Ideal) V c).arrAt 3 cfg0.N j
      = Cert.Spec.featK (V c main_arg0) (V c main_arg2) (brow (V c main_v0)) (j 0) (j 1) :=
  congrFun ((dat0 (F := Ideal) V c).arrAt_eq_of_cover 3 (featArrR0 V c) (flushedR0_3 V c) coverR0_3) j

theorem arr0_4 (c : Dev nD) (j : S4096x1.Idx) :
    (dat0 (F := Ideal) V c).arrAt 4 cfg0.N j
      = Cert.Spec.sq (Cert.Spec.featK (V c main_arg0) (V c main_arg2) (brow (V c main_v0))) (j 0) :=
  congrFun ((dat0 (F := Ideal) V c).arrAt_eq_of_cover 4 (sqArrR0 V c) (flushedR0_4 V c) coverR0_4) j

end

end Cert.KernelIdeal.Fr

end
-- ==== Proof.KI.V1Pieces.lean ====
import proofs.«148324_j39651138077344_1_alg».proof.Proof.KI.R1Dat
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Fr.R1

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat)

section
variable {F : FTy → Type} [FloatOps F] (P : Pt1 F) (xs : Vec F S1024x1024 .f32)

theorem hzR0 : (![0, 0] : Fin 2 → Nat) = fun _ => 0 := funext fun a => by
  match a with
  | ⟨0, _⟩ => rfl
  | ⟨1, _⟩ => rfl

/-- Every store writes a whole buffer and every load reads one: a buffer ends at its last store's payload, and a load after a store reads that payload. -/
theorem soutR1_A (hc0 : cond1_0 P.i) (hc1 : ¬cond1_1 P.i) :
    (P.outA hc0 hc1).2.2 = k1_pay2 (k1_pay1 (F := F)) P.x0 P.x1 := by
  have hcov := P.scoverA hc0 hc1
  obtain ⟨c, i, arg2, harg2, arg3, harg3, arg4, harg4, arg5, harg5, arg6, harg6, arg7, harg7, x0, x1, x2⟩ := P
  unfold Pt1.outA Pt1.runA rd1 at *
  dsimp only at hcov ⊢
  rw [View.read_writes_eq_canon _ _ _ hcov]
  unfold kernelRun1_A
  dsimp only
  sl_unfold_words
  rw [View.canon_cons_unit_zero (S := S1024x1024) hzR0, View.readCov_unit_zero (S := S1024x1024) _ hzR0]
  simp only [View.readAt_eq_ld, harg2.read_unread, harg3.read_unread, harg4.read_unread, harg7.read_unread, View.ld_unit_zero (S := S1024x1024) hzR0, View.ld_unit_zero (S := S1024x512) hzR0, View.ld_unit_zero (S := S512x1024) hzR0, View.ld_unit_zero (S := S1x1024) hzR0]

theorem soutR1_B (hc0 : ¬cond1_0 P.i) (hc1 : ¬cond1_1 P.i) :
    (P.outB xs hc0 hc1).2.2 = k1_pay2 xs P.x0 P.x1 := by
  have hcov := P.scoverB xs hc0 hc1
  obtain ⟨c, i, arg2, harg2, arg3, harg3, arg4, harg4, arg5, harg5, arg6, harg6, arg7, harg7, x0, x1, x2⟩ := P
  unfold Pt1.outB Pt1.runB rd1 at *
  dsimp only at hcov ⊢
  rw [View.read_writes_eq_canon _ _ _ hcov]
  unfold kernelRun1_B
  dsimp only
  sl_unfold_words
  rw [View.canon_unit_zero hzR0]
  simp only [View.readAt_eq_ld, harg2.read_unread, harg3.read_unread, harg4.read_unread, harg7.read_unread, View.ld_unit_zero (S := S1024x1024) hzR0, View.ld_unit_zero (S := S1024x512) hzR0, View.ld_unit_zero (S := S512x1024) hzR0, View.ld_unit_zero (S := S1x1024) hzR0]

theorem soutR1_C (hc0 : ¬cond1_0 P.i) (hc1 : cond1_1 P.i) :
    (P.outC xs hc0 hc1).2.2 = k1_pay2 xs P.x0 P.x1 := by
  have hcov := P.scoverC xs hc0 hc1
  obtain ⟨c, i, arg2, harg2, arg3, harg3, arg4, harg4, arg5, harg5, arg6, harg6, arg7, harg7, x0, x1, x2⟩ := P
  unfold Pt1.outC Pt1.runC rd1 at *
  dsimp only at hcov ⊢
  rw [View.read_writes_eq_canon _ _ _ hcov]
  unfold kernelRun1_C
  dsimp only
  sl_unfold_words
  rw [View.canon_unit_zero hzR0]
  simp only [View.readAt_eq_ld, harg2.read_unread, harg3.read_unread, harg4.read_unread, harg7.read_unread, View.ld_unit_zero (S := S1024x1024) hzR0, View.ld_unit_zero (S := S1024x512) hzR0, View.ld_unit_zero (S := S512x1024) hzR0, View.ld_unit_zero (S := S1x1024) hzR0]

theorem outR1_C3 (hc0 : ¬cond1_0 P.i) (hc1 : cond1_1 P.i) :
    (P.outC xs hc0 hc1).1 = k1_pay4 (k1_pay2 xs P.x0 P.x1) P.x2 := by
  have hcov := P.coverC3 xs hc0 hc1
  obtain ⟨c, i, arg2, harg2, arg3, harg3, arg4, harg4, arg5, harg5, arg6, harg6, arg7, harg7, x0, x1, x2⟩ := P
  unfold Pt1.outC Pt1.runC rd1 at *
  dsimp only at hcov ⊢
  rw [View.read_writes_eq_canon _ _ _ hcov]
  unfold kernelRun1_C
  dsimp only
  sl_unfold_words
  rw [View.canon_unit_zero hzR0]
  simp only [View.readCov_unit_zero (S := S1024x1024) _ hzR0, View.readAt_eq_ld, harg2.read_unread, harg3.read_unread, harg4.read_unread, harg7.read_unread, View.ld_unit_zero (S := S1024x1024) hzR0, View.ld_unit_zero (S := S1024x512) hzR0, View.ld_unit_zero (S := S512x1024) hzR0, View.ld_unit_zero (S := S1x1024) hzR0]

theorem outR1_C4 (hc0 : ¬cond1_0 P.i) (hc1 : cond1_1 P.i) :
    (P.outC xs hc0 hc1).2.1 = k1_pay5 (k1_pay2 xs P.x0 P.x1) P.x2 := by
  have hcov := P.coverC4 xs hc0 hc1
  obtain ⟨c, i, arg2, harg2, arg3, harg3, arg4, harg4, arg5, harg5, arg6, harg6, arg7, harg7, x0, x1, x2⟩ := P
  unfold Pt1.outC Pt1.runC rd1 at *
  dsimp only at hcov ⊢
  rw [View.read_writes_eq_canon _ _ _ hcov]
  unfold kernelRun1_C
  dsimp only
  sl_unfold_words
  rw [View.canon_unit_zero hzR0]
  simp only [View.readCov_unit_zero (S := S1024x1024) _ hzR0, View.readAt_eq_ld, harg2.read_unread, harg3.read_unread, harg4.read_unread, harg7.read_unread, View.ld_unit_zero (S := S1024x1024) hzR0, View.ld_unit_zero (S := S1024x512) hzR0, View.ld_unit_zero (S := S512x1024) hzR0, View.ld_unit_zero (S := S1x1024) hzR0]

end

theorem mmR1_lhs_0 (i : S1024x1024.Idx) (q : dot_S1024x512_S512x1024_S1024x1024_1_0_0_1_n_n.contr.Idx) :
    (dot_S1024x512_S512x1024_S1024x1024_1_0_0_1_n_n.lhsIdx i q 0).val = (i 0).val := by
  unfold DotDims.lhsIdx
  rw [dif_neg (show ¬(0 : Fin S1024x512.rank) ∈ dot_S1024x512_S512x1024_S1024x1024_1_0_0_1_n_n.lhsBatch by decide), dif_pos (show (0 : Fin S1024x512.rank) ∈ dot_S1024x512_S512x1024_S1024x1024_1_0_0_1_n_n.lhsNonContracting by decide)]
  rfl
theorem mmR1_lhs_1 (i : S1024x1024.Idx) (q : dot_S1024x512_S512x1024_S1024x1024_1_0_0_1_n_n.contr.Idx) :
    (dot_S1024x512_S512x1024_S1024x1024_1_0_0_1_n_n.lhsIdx i q 1).val = (q ⟨0, by decide⟩).val :=
  dot_S1024x512_S512x1024_S1024x1024_1_0_0_1_n_n.lhsIdx_val_of_single rfl i q
theorem mmR1_rhs_0 (i : S1024x1024.Idx) (q : dot_S1024x512_S512x1024_S1024x1024_1_0_0_1_n_n.contr.Idx) :
    (dot_S1024x512_S512x1024_S1024x1024_1_0_0_1_n_n.rhsIdx i q 0).val = (q ⟨0, by decide⟩).val :=
  dot_S1024x512_S512x1024_S1024x1024_1_0_0_1_n_n.rhsIdx_val_of_single rfl i q
theorem mmR1_rhs_1 (i : S1024x1024.Idx) (q : dot_S1024x512_S512x1024_S1024x1024_1_0_0_1_n_n.contr.Idx) :
    (dot_S1024x512_S512x1024_S1024x1024_1_0_0_1_n_n.rhsIdx i q 1).val = (i 1).val := by
  unfold DotDims.rhsIdx
  rw [dif_neg (show ¬(1 : Fin S512x1024.rank) ∈ dot_S1024x512_S512x1024_S1024x1024_1_0_0_1_n_n.rhsBatch by decide), dif_pos (show (1 : Fin S512x1024.rank) ∈ dot_S1024x512_S512x1024_S1024x1024_1_0_0_1_n_n.rhsNonContracting by decide)]
  rfl

theorem mmR1_at (x : FVec Ideal S1024x512 .bf16) (w : FVec Ideal S512x1024 .bf16) (p q : Fin 1024) :
    matmul dot_S1024x512_S512x1024_S1024x1024_1_0_0_1_n_n none x w (constant (F := Ideal) S1024x1024 .f32 0x00000000#32) (ix2 p q)
      = ∑ d : Fin 512, x (ix2 p d) * w (ix2 d q) := by
  simp only [matmul]
  rw [Ideal.matmul_constant_zero_apply, ← Equiv.sum_comp (ValueIdx.contrEquiv1 dot_S1024x512_S512x1024_S1024x1024_1_0_0_1_n_n 512 rfl rfl).symm]
  refine Finset.sum_congr rfl fun k _ => ?_
  have hk := ValueIdx.contrEquiv1_symm_val dot_S1024x512_S512x1024_S1024x1024_1_0_0_1_n_n 512 rfl rfl k
  have el : dot_S1024x512_S512x1024_S1024x1024_1_0_0_1_n_n.lhsIdx (ix2 p q) ((ValueIdx.contrEquiv1 dot_S1024x512_S512x1024_S1024x1024_1_0_0_1_n_n 512 rfl rfl).symm k) = ix2 p k := funext fun a => Fin.ext (by
    match a with
    | ⟨0, _⟩ => exact mmR1_lhs_0 _ _
    | ⟨1, _⟩ => exact (mmR1_lhs_1 _ _).trans hk)
  have er : dot_S1024x512_S512x1024_S1024x1024_1_0_0_1_n_n.rhsIdx (ix2 p q) ((ValueIdx.contrEquiv1 dot_S1024x512_S512x1024_S1024x1024_1_0_0_1_n_n 512 rfl rfl).symm k) = ix2 k q := funext fun a => Fin.ext (by
    match a with
    | ⟨0, _⟩ => exact (mmR1_rhs_0 _ _).trans hk
    | ⟨1, _⟩ => exact mmR1_rhs_1 _ _)
  rw [el, er]

theorem payR1_1_at (p q : Fin 1024) : (k1_pay1 (F := Ideal)) (ix2 p q) = 0 := by
  unfold k1_pay1
  refine (congrFun (shapeCast_self _ _) (ix2 p q)).trans ?_
  exact Ideal.ofBits_zero_f32

theorem payR1_2_at (s : Vec Ideal S1024x1024 .f32) (x : Vec Ideal S1024x512 .f32) (w : Vec Ideal S512x1024 .f32) (p q : Fin 1024) :
    k1_pay2 (F := Ideal) s x w (ix2 p q) = s (ix2 p q) + ∑ d : Fin 512, x (ix2 p d) * w (ix2 d q) := by
  unfold k1_pay2
  refine (congrFun (shapeCast_self _ _) (ix2 p q)).trans ?_
  exact congrArg (s (ix2 p q) + ·) (mmR1_at (truncf .bf16 x bitsLt_bf16_f32) (truncf .bf16 w bitsLt_bf16_f32) p q)

theorem payR1_3_at (a : Vec Ideal S1024x1024 .f32) (b : Vec Ideal S1x1024 .f32) (p q : Fin 1024) :
    k1_pay3 (F := Ideal) a b (ix2 p q) = a (ix2 p q) + b (ix2 0 q) := by
  unfold k1_pay3
  refine congrArg (a (ix2 p q) + ·) ?_
  refine (broadcastTo_1b_ab_apply _ _ p q).trans ?_
  exact congrFun (shapeCast_self b _) (ix2 0 q)

theorem payR1_4_at (a : Vec Ideal S1024x1024 .f32) (b : Vec Ideal S1x1024 .f32) (p q : Fin 1024) :
    k1_pay4 (F := Ideal) a b (ix2 p q) = k1_pay3 (F := Ideal) a b (ix2 p q) := rfl

theorem payR1_5_at (a : Vec Ideal S1024x1024 .f32) (b : Vec Ideal S1x1024 .f32) (p : Fin 1024) (u : Fin 1) :
    k1_pay5 (F := Ideal) a b (ix2 p u) = ∑ q : Fin 1024, k1_pay3 (F := Ideal) a b (ix2 p q) * k1_pay3 (F := Ideal) a b (ix2 p q) := by
  unfold k1_pay5
  refine (shapeCast_apply _ _ (ix2 p u) (ix1 p) ?_).trans ?_
  · rw [Shape.rowMajor_val_two, Shape.rowMajor_val_one]
    show p.val = p.val * 1 + u.val
    omega
  · refine (Ideal.multiReduction_add_single _ _ reduces_S1024x1024_S1024 _ _ (ix1 p)).trans ?_
    show ∑ q : Fin 1024, _ = _
    refine Finset.sum_congr rfl fun q _ => ?_
    have e : reduces_S1024x1024_S1024.lift (ix1 p) q = ix2 p q := funext fun a => Fin.ext (by
      match a with
      | ⟨0, _⟩ => rfl
      | ⟨1, _⟩ => rfl)
    show (mulf (k1_pay3 (F := Ideal) a b) (k1_pay3 (F := Ideal) a b)) (reduces_S1024x1024_S1024.lift (ix1 p) q) = _
    rw [e]
    rfl

end Cert.KernelIdeal.Fr.R1

end
-- ==== Proof.KI.V1.lean ====
import proofs.«148324_j39651138077344_1_alg».proof.Proof.KI.V1Pieces
import proofs.«148324_j39651138077344_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Fr.R1

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat)

def brow (B : S1x1024.Idx → EReal) : Cert.Spec.Row 1024 := fun f => B (ix2 0 (f 0))

theorem idxR1_facts : ∀ t : Fin cfg1.N,
    win1_0.index t (0 : Fin 2) = t.val / 4 ∧ win1_0.index t (1 : Fin 2) = t.val % 4
    ∧ win1_1.index t (0 : Fin 2) = t.val % 4 ∧ win1_1.index t (1 : Fin 2) = 0
    ∧ win1_2.index t (0 : Fin 2) = 0 ∧ win1_2.index t (1 : Fin 2) = 0
    ∧ win1_3.index t (0 : Fin 2) = t.val / 4 ∧ win1_3.index t (1 : Fin 2) = 0
    ∧ win1_4.index t (0 : Fin 2) = t.val / 4 ∧ win1_4.index t (1 : Fin 2) = 0 :=
  (by decide +kernel : ∀ t : Fin grid1.N, _)

theorem coverR1_3 (i : S2048x1024.Idx) :
    ∃ t : Fin cfg1.N, (cfg1.win 3).flush t = true ∧ i ∈ ((cfg1.win 3).blk t).view.set := by
  have hN : cfg1.N = 8 := N_1
  have h0 : (i 0).val < 2048 := (i 0).isLt
  have h1 : (i 1).val < 1024 := (i 1).isLt
  have ht : 4 * ((i 0).val / 1024) + 3 < cfg1.N := by rw [hN]; omega
  refine ⟨⟨4 * ((i 0).val / 1024) + 3, ht⟩, (flush1_3 _).mpr (by dsimp only; omega), ?_⟩
  obtain ⟨-, -, -, -, -, -, e0, e1, -⟩ := idxR1_facts ⟨4 * ((i 0).val / 1024) + 3, ht⟩
  dsimp only at e0 e1
  show i ∈ ((View.whole main_v2_0).slice (win1_3.rect ⟨4 * ((i 0).val / 1024) + 3, ht⟩)).set
  rw [View.set_slice_whole, Rect.mem_set_unit]
  intro a
  match a with
  | ⟨0, _⟩ =>
    show win1_3.index ⟨4 * ((i 0).val / 1024) + 3, ht⟩ (0 : Fin 2) * 1024 ≤ (i 0).val ∧ (i 0).val < win1_3.index ⟨4 * ((i 0).val / 1024) + 3, ht⟩ (0 : Fin 2) * 1024 + 1024
    rw [e0]; omega
  | ⟨1, _⟩ =>
    show win1_3.index ⟨4 * ((i 0).val / 1024) + 3, ht⟩ (1 : Fin 2) * 1024 ≤ (i 1).val ∧ (i 1).val < win1_3.index ⟨4 * ((i 0).val / 1024) + 3, ht⟩ (1 : Fin 2) * 1024 + 1024
    rw [e1]; omega

theorem coverR1_4 (i : S2048x1.Idx) :
    ∃ t : Fin cfg1.N, (cfg1.win 4).flush t = true ∧ i ∈ ((cfg1.win 4).blk t).view.set := by
  have hN : cfg1.N = 8 := N_1
  have h0 : (i 0).val < 2048 := (i 0).isLt
  have h1 : (i 1).val < 1 := (i 1).isLt
  have ht : 4 * ((i 0).val / 1024) + 3 < cfg1.N := by rw [hN]; omega
  refine ⟨⟨4 * ((i 0).val / 1024) + 3, ht⟩, (flush1_4 _).mpr (by dsimp only; omega), ?_⟩
  obtain ⟨-, -, -, -, -, -, -, -, e0, e1⟩ := idxR1_facts ⟨4 * ((i 0).val / 1024) + 3, ht⟩
  dsimp only at e0 e1
  show i ∈ ((View.whole main_v2_1).slice (win1_4.rect ⟨4 * ((i 0).val / 1024) + 3, ht⟩)).set
  rw [View.set_slice_whole, Rect.mem_set_unit]
  intro a
  match a with
  | ⟨0, _⟩ =>
    show win1_4.index ⟨4 * ((i 0).val / 1024) + 3, ht⟩ (0 : Fin 2) * 1024 ≤ (i 0).val ∧ (i 0).val < win1_4.index ⟨4 * ((i 0).val / 1024) + 3, ht⟩ (0 : Fin 2) * 1024 + 1024
    rw [e0]; omega
  | ⟨1, _⟩ =>
    show win1_4.index ⟨4 * ((i 0).val / 1024) + 3, ht⟩ (1 : Fin 2) * 1 ≤ (i 1).val ∧ (i 1).val < win1_4.index ⟨4 * ((i 0).val / 1024) + 3, ht⟩ (1 : Fin 2) * 1 + 1
    rw [e1]; omega

section
variable (V : (c : Dev nD) → (b : Ref sig .tc) → Buf (Elt Ideal) ((c : Thread nD τ).loc b))

theorem xblkR1_at (c : Dev nD) (t : Fin cfg1.N) (p : Fin 1024) (d : Fin 512) (r : Fin 2048) (k : Fin 2048)
    (hr : r.val = 1024 * (t.val / 4) + p.val) (hk : k.val = 512 * (t.val % 4) + d.val) :
    iblk1 V c 0 t (ix2 p d) = V c main_arg1 (ix2 r k) := by
  obtain ⟨e0, e1, -⟩ := idxR1_facts t
  unfold iblk1
  rw [View.read_apply]
  show V c main_arg1 _ = V c main_arg1 _
  refine congrArg (V c main_arg1) (funext fun a => Fin.ext ?_)
  match a with
  | ⟨0, _⟩ => show win1_0.index t (0 : Fin 2) * 1024 + 1 * p.val = r.val; rw [e0, hr]; omega
  | ⟨1, _⟩ => show win1_0.index t (1 : Fin 2) * 512 + 1 * d.val = k.val; rw [e1, hk]; omega

theorem wblkR1_at (c : Dev nD) (t : Fin cfg1.N) (d : Fin 512) (q : Fin 1024) (k : Fin 2048) (f : Fin 1024)
    (hk : k.val = 512 * (t.val % 4) + d.val) (hf : f.val = q.val) :
    iblk1 V c 1 t (ix2 d q) = V c main_arg2 (ix2 k f) := by
  obtain ⟨-, -, e0, e1, -⟩ := idxR1_facts t
  unfold iblk1
  rw [View.read_apply]
  show V c main_arg2 _ = V c main_arg2 _
  refine congrArg (V c main_arg2) (funext fun a => Fin.ext ?_)
  match a with
  | ⟨0, _⟩ => show win1_1.index t (0 : Fin 2) * 512 + 1 * d.val = k.val; rw [e0, hk]; omega
  | ⟨1, _⟩ => show win1_1.index t (1 : Fin 2) * 1024 + 1 * q.val = f.val; rw [e1, hf]; omega

theorem bblkR1_at (c : Dev nD) (t : Fin cfg1.N) (u : Fin 1) (q : Fin 1024) (f : Fin 1024) (hf : f.val = q.val) :
    iblk1 V c 2 t (ix2 u q) = V c main_v0 (ix2 0 f) := by
  obtain ⟨-, -, -, -, e0, e1, -⟩ := idxR1_facts t
  unfold iblk1
  rw [View.read_apply]
  show V c main_v0 _ = V c main_v0 _
  refine congrArg (V c main_v0) (funext fun a => Fin.ext ?_)
  match a with
  | ⟨0, _⟩ => show win1_2.index t (0 : Fin 2) * 1 + 1 * u.val = 0; rw [e0]; omega
  | ⟨1, _⟩ => show win1_2.index t (1 : Fin 2) * 1024 + 1 * q.val = f.val; rw [e1, hf]; omega

theorem stepR1_at (c : Dev nD) (t : Fin cfg1.N) (s : Vec Ideal S1024x1024 .f32) (p q : Fin 1024) (r : Fin 2048) (k : Fin 4)
    (hr : r.val = 1024 * (t.val / 4) + p.val) (hk : k.val = t.val % 4) :
    k1_pay2 (F := Ideal) s (iblk1 V c 0 t) (iblk1 V c 1 t) (ix2 p q)
      = s (ix2 p q) + Cert.Spec.slab (V c main_arg1) (V c main_arg2) r q k := by
  refine (payR1_2_at s (iblk1 V c 0 t) (iblk1 V c 1 t) p q).trans ?_
  refine congrArg (s (ix2 p q) + ·) ?_
  unfold Cert.Spec.slab
  refine Finset.sum_congr rfl fun d _ => ?_
  have hcol : (Cert.Spec.col k d).val = 512 * (t.val % 4) + d.val := by
    show 512 * k.val + d.val = _
    rw [hk]
  exact congrArg₂ (· * ·) (xblkR1_at V c t p d r (Cert.Spec.col k d) hr hcol) (wblkR1_at V c t d q (Cert.Spec.col k d) q hcol rfl)

theorem accR1_0 (c : Dev nD) (t : Fin cfg1.N) (hm : t.val % 4 = 0) (p q : Fin 1024) (r : Fin 2048)
    (hr : r.val = 1024 * (t.val / 4) + p.val) :
    (outsAt1 V c t.val t.isLt).2.2 (ix2 p q) = 0 + Cert.Spec.slab (V c main_arg1) (V c main_arg2) r q 0 := by
  have h0 : t.val % 4 = 0 := hm
  have h1 : ¬t.val % 4 = 3 := by omega
  rw [outsAt1_A V c t h0 h1]
  refine (congrFun (soutR1_A (F := Ideal) (pt1 V c t) _ _) (ix2 p q)).trans ?_
  refine (stepR1_at V c t (k1_pay1 (F := Ideal)) p q r 0 hr (by rw [hm]; rfl)).trans ?_
  exact congrArg (· + Cert.Spec.slab (V c main_arg1) (V c main_arg2) r q 0) (payR1_1_at p q)

theorem accR1_1 (c : Dev nD) (t : Fin cfg1.N) (hm : t.val % 4 = 1) (p q : Fin 1024) (r : Fin 2048)
    (hr : r.val = 1024 * (t.val / 4) + p.val) :
    (outsAt1 V c t.val t.isLt).2.2 (ix2 p q)
      = (0 + Cert.Spec.slab (V c main_arg1) (V c main_arg2) r q 0) + Cert.Spec.slab (V c main_arg1) (V c main_arg2) r q 1 := by
  have h0 : ¬t.val % 4 = 0 := by omega
  have h1 : ¬t.val % 4 = 3 := by omega
  rw [outsAt1_B V c t h0 h1]
  refine (congrFun (soutR1_B (F := Ideal) (pt1 V c t) (prev1 V c t) _ _) (ix2 p q)).trans ?_
  refine (stepR1_at V c t (prev1 V c t) p q r 1 hr (by rw [hm]; rfl)).trans ?_
  refine congrArg (· + Cert.Spec.slab (V c main_arg1) (V c main_arg2) r q 1) ?_
  exact accR1_0 V c ⟨t.val - 1, Nat.lt_of_le_of_lt (Nat.sub_le _ _) t.isLt⟩ (by dsimp only; omega) p q r (by dsimp only; omega)

theorem accR1_2 (c : Dev nD) (t : Fin cfg1.N) (hm : t.val % 4 = 2) (p q : Fin 1024) (r : Fin 2048)
    (hr : r.val = 1024 * (t.val / 4) + p.val) :
    (outsAt1 V c t.val t.isLt).2.2 (ix2 p q)
      = ((0 + Cert.Spec.slab (V c main_arg1) (V c main_arg2) r q 0) + Cert.Spec.slab (V c main_arg1) (V c main_arg2) r q 1) + Cert.Spec.slab (V c main_arg1) (V c main_arg2) r q 2 := by
  have h0 : ¬t.val % 4 = 0 := by omega
  have h1 : ¬t.val % 4 = 3 := by omega
  rw [outsAt1_B V c t h0 h1]
  refine (congrFun (soutR1_B (F := Ideal) (pt1 V c t) (prev1 V c t) _ _) (ix2 p q)).trans ?_
  refine (stepR1_at V c t (prev1 V c t) p q r 2 hr (by rw [hm]; rfl)).trans ?_
  refine congrArg (· + Cert.Spec.slab (V c main_arg1) (V c main_arg2) r q 2) ?_
  exact accR1_1 V c ⟨t.val - 1, Nat.lt_of_le_of_lt (Nat.sub_le _ _) t.isLt⟩ (by dsimp only; omega) p q r (by dsimp only; omega)

theorem featR1_at (c : Dev nD) (t : Fin cfg1.N) (hm : t.val % 4 = 3) (p q : Fin 1024) (r : Fin 2048) (f : Fin 1024)
    (hr : r.val = 1024 * (t.val / 4) + p.val) (hf : f.val = q.val) :
    k1_pay3 (F := Ideal) (k1_pay2 (F := Ideal) (prev1 V c t) (iblk1 V c 0 t) (iblk1 V c 1 t)) (iblk1 V c 2 t) (ix2 p q)
      = Cert.Spec.featK (V c main_arg1) (V c main_arg2) (brow (V c main_v0)) r f := by
  obtain rfl : f = q := Fin.ext hf
  refine (payR1_3_at (k1_pay2 (F := Ideal) (prev1 V c t) (iblk1 V c 0 t) (iblk1 V c 1 t)) (iblk1 V c 2 t) p f).trans ?_
  unfold Cert.Spec.featK
  refine congrArg₂ (· + ·) ?_ (bblkR1_at V c t 0 f f rfl)
  refine (stepR1_at V c t (prev1 V c t) p f r 3 hr (by rw [hm]; rfl)).trans ?_
  refine congrArg (· + Cert.Spec.slab (V c main_arg1) (V c main_arg2) r f 3) ?_
  exact accR1_2 V c ⟨t.val - 1, Nat.lt_of_le_of_lt (Nat.sub_le _ _) t.isLt⟩ (by dsimp only; omega) p f r (by dsimp only; omega)

theorem outR1_3_at (c : Dev nD) (t : Fin cfg1.N) (hm : t.val % 4 = 3) (p q : Fin 1024) (r : Fin 2048) (f : Fin 1024)
    (hr : r.val = 1024 * (t.val / 4) + p.val) (hf : f.val = q.val) :
    (outsAt1 V c t.val t.isLt).1 (ix2 p q) = Cert.Spec.featK (V c main_arg1) (V c main_arg2) (brow (V c main_v0)) r f := by
  have h0 : ¬t.val % 4 = 0 := by omega
  have h1 : t.val % 4 = 3 := hm
  rw [outsAt1_C V c t h0 h1]
  refine (congrFun (outR1_C3 (F := Ideal) (pt1 V c t) (prev1 V c t) _ _) (ix2 p q)).trans ?_
  exact featR1_at V c t hm p q r f hr hf

theorem outR1_4_at (c : Dev nD) (t : Fin cfg1.N) (hm : t.val % 4 = 3) (p : Fin 1024) (u : Fin 1) (r : Fin 2048)
    (hr : r.val = 1024 * (t.val / 4) + p.val) :
    (outsAt1 V c t.val t.isLt).2.1 (ix2 p u) = Cert.Spec.sq (Cert.Spec.featK (V c main_arg1) (V c main_arg2) (brow (V c main_v0))) r := by
  have h0 : ¬t.val % 4 = 0 := by omega
  have h1 : t.val % 4 = 3 := hm
  rw [outsAt1_C V c t h0 h1]
  refine (congrFun (outR1_C4 (F := Ideal) (pt1 V c t) (prev1 V c t) _ _) (ix2 p u)).trans ?_
  refine (payR1_5_at (k1_pay2 (F := Ideal) (prev1 V c t) (iblk1 V c 0 t) (iblk1 V c 1 t)) (iblk1 V c 2 t) p u).trans ?_
  unfold Cert.Spec.sq
  refine Finset.sum_congr rfl fun q _ => ?_
  exact congrArg₂ (· * ·) (featR1_at V c t hm p q r q hr rfl) (featR1_at V c t hm p q r q hr rfl)

abbrev featArrR0 (c : Dev nD) : S2048x1024.Idx → EReal :=
  fun j => Cert.Spec.featK (V c main_arg1) (V c main_arg2) (brow (V c main_v0)) (j 0) (j 1)

abbrev sqArrR0 (c : Dev nD) : S2048x1.Idx → EReal :=
  fun j => Cert.Spec.sq (Cert.Spec.featK (V c main_arg1) (V c main_arg2) (brow (V c main_v0))) (j 0)

theorem flushedR1_3 (c : Dev nD) (t : Fin cfg1.N) (hf : (cfg1.win 3).flush t = true) :
    (dat1 (F := Ideal) V c).flushed 3 t = ((cfg1.win 3).blk t).view.read (Elt Ideal) (featArrR0 V c) := by
  have hm : t.val % 4 = 3 := (flush1_3 t).mp hf
  obtain ⟨-, -, -, -, -, -, e0, e1, -⟩ := idxR1_facts t
  show (cfg1.win 3).cut (grid1.coords t) ((dat1 (F := Ideal) V c).after 3 t) = _
  rw [after1_3]
  funext y
  obtain ⟨p, q, rfl⟩ : ∃ (p q : Fin 1024), y = ix2 p q := ⟨y 0, y 1, eq_ix2 y⟩
  rw [View.read_apply]
  refine (outR1_3_at V c t hm p q _ _ ?_ ?_).trans rfl
  · show win1_3.index t (0 : Fin 2) * 1024 + 1 * p.val = _
    rw [e0]; omega
  · show win1_3.index t (1 : Fin 2) * 1024 + 1 * q.val = _
    rw [e1]; omega

theorem flushedR1_4 (c : Dev nD) (t : Fin cfg1.N) (hf : (cfg1.win 4).flush t = true) :
    (dat1 (F := Ideal) V c).flushed 4 t = ((cfg1.win 4).blk t).view.read (Elt Ideal) (sqArrR0 V c) := by
  have hm : t.val % 4 = 3 := (flush1_4 t).mp hf
  obtain ⟨-, -, -, -, -, -, -, -, e0, e1⟩ := idxR1_facts t
  show (cfg1.win 4).cut (grid1.coords t) ((dat1 (F := Ideal) V c).after 4 t) = _
  rw [after1_4]
  funext y
  obtain ⟨p, u, rfl⟩ : ∃ (p : Fin 1024) (u : Fin 1), y = ix2 p u := ⟨y 0, y 1, eq_ix2 y⟩
  rw [View.read_apply]
  refine (outR1_4_at V c t hm p u _ ?_).trans rfl
  show win1_4.index t (0 : Fin 2) * 1024 + 1 * p.val = _
  rw [e0]; omega

theorem arr1_3 (c : Dev nD) (j : S2048x1024.Idx) :
    (dat1 (F := Ideal) V c).arrAt 3 cfg1.N j
      = Cert.Spec.featK (V c main_arg1) (V c main_arg2) (brow (V c main_v0)) (j 0) (j 1) :=
  congrFun ((dat1 (F := Ideal) V c).arrAt_eq_of_cover 3 (featArrR0 V c) (flushedR1_3 V c) coverR1_3) j

theorem arr1_4 (c : Dev nD) (j : S2048x1.Idx) :
    (dat1 (F := Ideal) V c).arrAt 4 cfg1.N j
      = Cert.Spec.sq (Cert.Spec.featK (V c main_arg1) (V c main_arg2) (brow (V c main_v0))) (j 0) :=
  congrFun ((dat1 (F := Ideal) V c).arrAt_eq_of_cover 4 (sqArrR0 V c) (flushedR1_4 V c) coverR1_4) j

end

end Cert.KernelIdeal.Fr.R1

end
-- ==== Proof.KI.V2Pieces.lean ====
import proofs.«148324_j39651138077344_1_alg».proof.Proof.KI.R2Dat
import proofs.«148324_j39651138077344_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Fr

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat)

section
variable {F : FTy → Type} [FloatOps F] (P : Pt2 F) (xs : Vec F S1024x1 .f32)

theorem hz2 : (![0, 0] : Fin 2 → Nat) = fun _ => 0 := funext fun a => by fin_cases a <;> rfl

/-- Every store writes a whole buffer and every load reads one: a buffer ends at its last store's payload, and a load after a store reads that payload. -/
theorem sout2_A_0_eq (hc0 : cond2_0 P.i) (hc1 : ¬cond2_1 P.i) :
    (P.outA hc0 hc1).2 = k2_pay2 P.x0 P.x2 P.x1 P.x3 k2_pay1 := by
  have hcov := P.scoverA hc0 hc1
  obtain ⟨c, i, arg2, harg2, arg3, harg3, arg4, harg4, arg5, harg5, arg6, harg6, arg7, harg7, x0, x1, x2, x3⟩ := P
  unfold Pt2.outA Pt2.runA rd2 at *
  dsimp only at hcov ⊢
  rw [View.read_writes_eq_canon _ _ _ hcov]
  unfold kernelRun2_A
  dsimp only
  sl_unfold_words
  rw [View.canon_cons_unit_zero (S := S1024x1) hz2]
  simp only [View.readAt_eq_ld, harg2.read_unread, harg3.read_unread, harg4.read_unread, harg5.read_unread, harg7.read_unread,
    View.ld_unit_zero (S := S1024x1024) hz2, View.ld_unit_zero (S := S1024x1) hz2, View.ld_unit_zero (S := S1x1024) hz2,
    View.readCov_unit_zero (S := S1024x1) _ hz2]

theorem sout2_C_0_eq (hc0 : ¬cond2_0 P.i) (hc1 : cond2_1 P.i) :
    (P.outC xs hc0 hc1).2 = k2_pay2 P.x0 P.x2 P.x1 P.x3 xs := by
  have hcov := P.scoverC xs hc0 hc1
  obtain ⟨c, i, arg2, harg2, arg3, harg3, arg4, harg4, arg5, harg5, arg6, harg6, arg7, harg7, x0, x1, x2, x3⟩ := P
  unfold Pt2.outC Pt2.runC rd2 at *
  dsimp only at hcov ⊢
  rw [View.read_writes_eq_canon _ _ _ hcov]
  unfold kernelRun2_C
  dsimp only
  sl_unfold_words
  rw [View.canon_unit_zero hz2]
  simp only [View.readAt_eq_ld, harg2.read_unread, harg3.read_unread, harg4.read_unread, harg5.read_unread, harg7.read_unread,
    View.ld_unit_zero (S := S1024x1024) hz2, View.ld_unit_zero (S := S1024x1) hz2, View.ld_unit_zero (S := S1x1024) hz2,
    View.readCov_unit_zero (S := S1024x1) _ hz2]

theorem out2_C_4_eq (hc0 : ¬cond2_0 P.i) (hc1 : cond2_1 P.i) :
    (P.outC xs hc0 hc1).1 = k2_pay3 (k2_pay2 P.x0 P.x2 P.x1 P.x3 xs) := by
  have hcov := P.coverC4 xs hc0 hc1
  obtain ⟨c, i, arg2, harg2, arg3, harg3, arg4, harg4, arg5, harg5, arg6, harg6, arg7, harg7, x0, x1, x2, x3⟩ := P
  unfold Pt2.outC Pt2.runC rd2 at *
  dsimp only at hcov ⊢
  rw [View.read_writes_eq_canon _ _ _ hcov]
  unfold kernelRun2_C
  dsimp only
  sl_unfold_words
  rw [View.canon_unit_zero hz2]
  simp only [View.readAt_eq_ld, harg2.read_unread, harg3.read_unread, harg4.read_unread, harg5.read_unread, harg7.read_unread,
    View.ld_unit_zero (S := S1024x1024) hz2, View.ld_unit_zero (S := S1024x1) hz2, View.ld_unit_zero (S := S1x1024) hz2,
    View.readCov_unit_zero (S := S1024x1) _ hz2]
end

section Layout
variable {α : Type}

theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

def distTile (a b : FVec Ideal S1024x1024 .bf16) (sa : FVec Ideal S1024x1 .f32) (sb : FVec Ideal S1x1024 .f32) : FVec Ideal S1024x1024 .f32 :=
  subf (addf (broadcastTo S1024x1024 (shapeCast S1024x1 sa shapeCasts_S1024x1_S1024x1) broadcasts_S1024x1_S1024x1024)
      (broadcastTo S1024x1024 (shapeCast S1x1024 sb shapeCasts_S1x1024_S1x1024) broadcasts_S1x1024_S1024x1024))
    (mulf (broadcast S1024x1024 (Scalar.ofBits (F := Ideal) .f32 0x40000000#32))
      (matmul dot_S1024x1024_S1024x1024_S1024x1024_1_1_0_0_n_n none (shapeCast S1024x1024 a shapeCasts_S1024x1024_S1024x1024) (shapeCast S1024x1024 b shapeCasts_S1024x1024_S1024x1024)
        (constant (F := Ideal) S1024x1024 .f32 0x00000000#32)))

def rowSums (src : FVec Ideal S1024x1024 .f32) : FVec Ideal S1024x1 .f32 :=
  shapeCast S1024x1 (multiReduction (F := Ideal) .add [1] S1024 src 0x00000000#32 reduces_S1024x1024_S1024 (.inl rfl) rfl) shapeCasts_S1024_S1024x1

theorem k2_pay2_eq (a b : FVec Ideal S1024x1024 .bf16) (sa : FVec Ideal S1024x1 .f32) (sb : FVec Ideal S1x1024 .f32) (acc : FVec Ideal S1024x1 .f32) :
    k2_pay2 (F := Ideal) a b sa sb acc = shapeCast S1024x1 (addf acc (rowSums (distTile a b sa sb))) shapeCasts_S1024x1_S1024x1 := rfl

theorem lhs_mm_0 (i : S1024x1024.Idx) (q : dot_S1024x1024_S1024x1024_S1024x1024_1_1_0_0_n_n.contr.Idx) :
    (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
theorem lhs_mm_1 (i : S1024x1024.Idx) (q : dot_S1024x1024_S1024x1024_S1024x1024_1_1_0_0_n_n.contr.Idx) :
    (dot_S1024x1024_S1024x1024_S1024x1024_1_1_0_0_n_n.lhsIdx i q 1).val = (q ⟨0, by decide⟩).val :=
  dot_S1024x1024_S1024x1024_S1024x1024_1_1_0_0_n_n.lhsIdx_val_of_single rfl i q
theorem rhs_mm_0 (i : S1024x1024.Idx) (q : dot_S1024x1024_S1024x1024_S1024x1024_1_1_0_0_n_n.contr.Idx) :
    (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
theorem rhs_mm_1 (i : S1024x1024.Idx) (q : dot_S1024x1024_S1024x1024_S1024x1024_1_1_0_0_n_n.contr.Idx) :
    (dot_S1024x1024_S1024x1024_S1024x1024_1_1_0_0_n_n.rhsIdx i q 1).val = (q ⟨0, by decide⟩).val :=
  dot_S1024x1024_S1024x1024_S1024x1024_1_1_0_0_n_n.rhsIdx_val_of_single rfl i q

theorem mm_apply (a b : FVec Ideal S1024x1024 .bf16) (p r : Fin 1024) :
    matmul dot_S1024x1024_S1024x1024_S1024x1024_1_1_0_0_n_n none a b (constant (F := Ideal) S1024x1024 .f32 0x00000000#32) (ix2 p r)
      = ∑ f : Fin 1024, a (ix2 p f) * b (ix2 r f) := by
  simp only [matmul]
  rw [Ideal.matmul_constant_zero_apply, ← Equiv.sum_comp (ValueIdx.contrEquiv1 dot_S1024x1024_S1024x1024_S1024x1024_1_1_0_0_n_n 1024 rfl rfl).symm]
  refine Finset.sum_congr rfl fun k _ => ?_
  have hk := ValueIdx.contrEquiv1_symm_val dot_S1024x1024_S1024x1024_S1024x1024_1_1_0_0_n_n 1024 rfl rfl k
  have el : dot_S1024x1024_S1024x1024_S1024x1024_1_1_0_0_n_n.lhsIdx (ix2 p r) ((ValueIdx.contrEquiv1 dot_S1024x1024_S1024x1024_S1024x1024_1_1_0_0_n_n 1024 rfl rfl).symm k) = ix2 p k := funext fun ax => Fin.ext (by
    match ax with
    | ⟨0, _⟩ => exact lhs_mm_0 _ _
    | ⟨1, _⟩ => exact (lhs_mm_1 _ _).trans hk)
  have er : dot_S1024x1024_S1024x1024_S1024x1024_1_1_0_0_n_n.rhsIdx (ix2 p r) ((ValueIdx.contrEquiv1 dot_S1024x1024_S1024x1024_S1024x1024_1_1_0_0_n_n 1024 rfl rfl).symm k) = ix2 r k := funext fun ax => Fin.ext (by
    match ax with
    | ⟨0, _⟩ => exact rhs_mm_0 _ _
    | ⟨1, _⟩ => exact (rhs_mm_1 _ _).trans hk)
  rw [el, er]

theorem distTile_apply (a b : FVec Ideal S1024x1024 .bf16) (sa : FVec Ideal S1024x1 .f32) (sb : FVec Ideal S1x1024 .f32) (p r : Fin 1024) :
    distTile a b sa sb (ix2 p r)
      = (sa (ix2 p (0 : Fin 1)) + sb (ix2 (0 : Fin 1) r)) - Cert.Spec.two * ∑ f : Fin 1024, a (ix2 p f) * b (ix2 r f) := by
  unfold distTile
  simp only [shapeCast_self]
  refine (subf_apply _ _ _).trans ?_
  refine congrArg₂ (· - ·) ?_ ?_
  · refine (addf_apply _ _ _).trans ?_
    refine congrArg₂ (· + ·) ?_ ?_
    · exact broadcastTo_a1_ab_apply sa broadcasts_S1024x1_S1024x1024 p r
    · exact broadcastTo_1b_ab_apply sb broadcasts_S1x1024_S1024x1024 p r
  · refine (mulf_apply _ _ _).trans ?_
    refine congrArg₂ (· * ·) rfl ?_
    exact mm_apply a b p r

theorem rowSums_apply (src : FVec Ideal S1024x1024 .f32) (p : Fin 1024) (u : Fin 1) :
    rowSums src (ix2 p u) = ∑ r : Fin 1024, src (ix2 p r) := by
  unfold rowSums
  refine (shapeCast_a_a1_apply _ shapeCasts_S1024_S1024x1 p u).trans ?_
  refine (Ideal.multiReduction_add_single src 0x00000000#32 reduces_S1024x1024_S1024 (.inl rfl) rfl (ix1 p)).trans ?_
  refine Finset.sum_congr rfl fun r _ => congrArg src ?_
  funext ax
  match ax with
  | ⟨0, _⟩ => exact Fin.ext rfl
  | ⟨1, _⟩ => exact Fin.ext rfl

theorem k2_pay2_apply (a b : FVec Ideal S1024x1024 .bf16) (sa : FVec Ideal S1024x1 .f32) (sb : FVec Ideal S1x1024 .f32) (acc : FVec Ideal S1024x1 .f32) (p : Fin 1024) :
    k2_pay2 (F := Ideal) a b sa sb acc (ix2 p (0 : Fin 1))
      = acc (ix2 p (0 : Fin 1)) + ∑ r : Fin 1024, ((sa (ix2 p (0 : Fin 1)) + sb (ix2 (0 : Fin 1) r)) - Cert.Spec.two * ∑ f : Fin 1024, a (ix2 p f) * b (ix2 r f)) := by
  rw [k2_pay2_eq, shapeCast_self]
  refine (addf_apply _ _ _).trans ?_
  refine congrArg (acc (ix2 p (0 : Fin 1)) + ·) ?_
  refine (rowSums_apply _ p 0).trans ?_
  exact Finset.sum_congr rfl fun r _ => distTile_apply a b sa sb p r

theorem k2_pay1_apply (p : Fin 1024) : (k2_pay1 (F := Ideal)) (ix2 p (0 : Fin 1)) = 0 := by
  unfold k2_pay1
  simp only [shapeCast_self]
  exact Ideal.ofBits_zero_f32

theorem k2_pay3_apply (acc : FVec Ideal S1024x1 .f32) (p : Fin 1024) :
    k2_pay3 (F := Ideal) acc (ix2 p (0 : Fin 1)) = acc (ix2 p (0 : Fin 1)) * Cert.Spec.invN := rfl

theorem rowBlock_apply (a0 b0 : FVec Ideal S1024x1024 .bf16) (sa0 : FVec Ideal S1024x1 .f32) (sb0 : FVec Ideal S1x1024 .f32)
    (a1 b1 : FVec Ideal S1024x1024 .bf16) (sa1 : FVec Ideal S1024x1 .f32) (sb1 : FVec Ideal S1x1024 .f32) (p : Fin 1024) :
    k2_pay3 (F := Ideal) (k2_pay2 (F := Ideal) a1 b1 sa1 sb1 (k2_pay2 (F := Ideal) a0 b0 sa0 sb0 (k2_pay1 (F := Ideal)))) (ix2 p (0 : Fin 1))
      = ((0 + ∑ r : Fin 1024, ((sa0 (ix2 p (0 : Fin 1)) + sb0 (ix2 (0 : Fin 1) r)) - Cert.Spec.two * ∑ f : Fin 1024, a0 (ix2 p f) * b0 (ix2 r f)))
          + ∑ r : Fin 1024, ((sa1 (ix2 p (0 : Fin 1)) + sb1 (ix2 (0 : Fin 1) r)) - Cert.Spec.two * ∑ f : Fin 1024, a1 (ix2 p f) * b1 (ix2 r f))) * Cert.Spec.invN := by
  rw [k2_pay3_apply, k2_pay2_apply, k2_pay2_apply, k2_pay1_apply]

theorem rowBlock_apply_idx (a0 b0 : FVec Ideal S1024x1024 .bf16) (sa0 : FVec Ideal S1024x1 .f32) (sb0 : FVec Ideal S1x1024 .f32)
    (a1 b1 : FVec Ideal S1024x1024 .bf16) (sa1 : FVec Ideal S1024x1 .f32) (sb1 : FVec Ideal S1x1024 .f32) (y : S1024x1.Idx) :
    k2_pay3 (F := Ideal) (k2_pay2 (F := Ideal) a1 b1 sa1 sb1 (k2_pay2 (F := Ideal) a0 b0 sa0 sb0 (k2_pay1 (F := Ideal)))) y
      = ((0 + ∑ r : Fin 1024, ((sa0 (ix2 (y 0) (0 : Fin 1)) + sb0 (ix2 (0 : Fin 1) r)) - Cert.Spec.two * ∑ f : Fin 1024, a0 (ix2 (y 0) f) * b0 (ix2 r f)))
          + ∑ r : Fin 1024, ((sa1 (ix2 (y 0) (0 : Fin 1)) + sb1 (ix2 (0 : Fin 1) r)) - Cert.Spec.two * ∑ f : Fin 1024, a1 (ix2 (y 0) f) * b1 (ix2 r f))) * Cert.Spec.invN := by
  obtain ⟨p, u, rfl⟩ : ∃ (p : Fin 1024) (u : Fin 1), y = ix2 p u := ⟨y 0, y 1, eq_ix2 y⟩
  obtain rfl : u = 0 := Subsingleton.elim _ _
  exact rowBlock_apply a0 b0 sa0 sb0 a1 b1 sa1 sb1 p

end Cert.KernelIdeal.Fr

end
-- ==== Proof.KI.V2.lean ====
import proofs.«148324_j39651138077344_1_alg».proof.Proof.KI.R2Dat
import proofs.«148324_j39651138077344_1_alg».proof.Proof.KI.V2Pieces
import proofs.«148324_j39651138077344_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Fr

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat)

theorem idx_facts2 : ∀ t : Fin cfg2.N,
    win2_0.index t (0 : Fin 2) = t.val / 2 ∧ win2_0.index t (1 : Fin 2) = 0
    ∧ win2_1.index t (0 : Fin 2) = t.val / 2 ∧ win2_1.index t (1 : Fin 2) = 0
    ∧ win2_2.index t (0 : Fin 2) = t.val % 2 ∧ win2_2.index t (1 : Fin 2) = 0
    ∧ win2_3.index t (0 : Fin 2) = 0 ∧ win2_3.index t (1 : Fin 2) = t.val % 2
    ∧ win2_4.index t (0 : Fin 2) = t.val / 2 ∧ win2_4.index t (1 : Fin 2) = 0 :=
  (by decide +kernel : ∀ t : Fin grid2.N, _)

section
variable (V : (c : Dev nD) → (b : Ref sig .tc) → Buf (Elt Ideal) ((c : Thread nD τ).loc b))

abbrev arrA (c : Dev nD) : FVec Ideal S4096x1024 .bf16 := V c main_v1_0
abbrev arrSA (c : Dev nD) : FVec Ideal S4096x1 .f32 := V c main_v1_1
abbrev arrB (c : Dev nD) : FVec Ideal S2048x1024 .bf16 := V c main_v2_0
abbrev arrSB (c : Dev nD) : FVec Ideal S1x2048 .f32 := V c main_v3
abbrev blkA (c : Dev nD) (t : Fin cfg2.N) : FVec Ideal S1024x1024 .bf16 := iblk2 V c 0 t
abbrev blkSA (c : Dev nD) (t : Fin cfg2.N) : FVec Ideal S1024x1 .f32 := iblk2 V c 1 t
abbrev blkB (c : Dev nD) (t : Fin cfg2.N) : FVec Ideal S1024x1024 .bf16 := iblk2 V c 2 t
abbrev blkSB (c : Dev nD) (t : Fin cfg2.N) : FVec Ideal S1x1024 .f32 := iblk2 V c 3 t

theorem blkA_apply (c : Dev nD) (t : Fin cfg2.N) (p f : Fin 1024) (row : Fin 4096) (hrow : row.val = 1024 * (t.val / 2) + p.val) :
    blkA V c t (ix2 p f) = arrA V c (ix2 row f) := by
  obtain ⟨e00, e01, e10, e11, e20, e21, e30, e31, e40, e41⟩ := idx_facts2 t
  show ((cfg2.win 0).blk t).view.read (Elt Ideal) (V c (Pipeline.arrRef spec2 0)) (ix2 p f) = _
  rw [View.read_apply]
  show V c main_v1_0 _ = V c main_v1_0 _
  refine congrArg (V c main_v1_0) (funext fun a => Fin.ext ?_)
  match a with
  | ⟨0, _⟩ => show win2_0.index t (0 : Fin 2) * 1024 + 1 * p.val = row.val; rw [e00, hrow]; omega
  | ⟨1, _⟩ => show win2_0.index t (1 : Fin 2) * 1024 + 1 * f.val = f.val; rw [e01]; omega

theorem blkSA_apply (c : Dev nD) (t : Fin cfg2.N) (p : Fin 1024) (u : Fin 1) (row : Fin 4096) (hrow : row.val = 1024 * (t.val / 2) + p.val) :
    blkSA V c t (ix2 p u) = arrSA V c (ix2 row (0 : Fin 1)) := by
  obtain ⟨e00, e01, e10, e11, e20, e21, e30, e31, e40, e41⟩ := idx_facts2 t
  show ((cfg2.win 1).blk t).view.read (Elt Ideal) (V c (Pipeline.arrRef spec2 1)) (ix2 p u) = _
  rw [View.read_apply]
  show V c main_v1_1 _ = V c main_v1_1 _
  refine congrArg (V c main_v1_1) (funext fun a => Fin.ext ?_)
  match a with
  | ⟨0, _⟩ => show win2_1.index t (0 : Fin 2) * 1024 + 1 * p.val = row.val; rw [e10, hrow]; omega
  | ⟨1, _⟩ => show win2_1.index t (1 : Fin 2) * 1 + 1 * u.val = 0; rw [e11]; have := u.isLt; omega

theorem blkB_apply (c : Dev nD) (t : Fin cfg2.N) (r f : Fin 1024) (rr : Fin 2048) (hrr : rr.val = 1024 * (t.val % 2) + r.val) :
    blkB V c t (ix2 r f) = arrB V c (ix2 rr f) := by
  obtain ⟨e00, e01, e10, e11, e20, e21, e30, e31, e40, e41⟩ := idx_facts2 t
  show ((cfg2.win 2).blk t).view.read (Elt Ideal) (V c (Pipeline.arrRef spec2 2)) (ix2 r f) = _
  rw [View.read_apply]
  show V c main_v2_0 _ = V c main_v2_0 _
  refine congrArg (V c main_v2_0) (funext fun a => Fin.ext ?_)
  match a with
  | ⟨0, _⟩ => show win2_2.index t (0 : Fin 2) * 1024 + 1 * r.val = rr.val; rw [e20, hrr]; omega
  | ⟨1, _⟩ => show win2_2.index t (1 : Fin 2) * 1024 + 1 * f.val = f.val; rw [e21]; omega

theorem blkSB_apply (c : Dev nD) (t : Fin cfg2.N) (u : Fin 1) (r : Fin 1024) (rr : Fin 2048) (hrr : rr.val = 1024 * (t.val % 2) + r.val) :
    blkSB V c t (ix2 u r) = arrSB V c (ix2 (0 : Fin 1) rr) := by
  obtain ⟨e00, e01, e10, e11, e20, e21, e30, e31, e40, e41⟩ := idx_facts2 t
  show ((cfg2.win 3).blk t).view.read (Elt Ideal) (V c (Pipeline.arrRef spec2 3)) (ix2 u r) = _
  rw [View.read_apply]
  show V c main_v3 _ = V c main_v3 _
  refine congrArg (V c main_v3) (funext fun a => Fin.ext ?_)
  match a with
  | ⟨0, _⟩ => show win2_3.index t (0 : Fin 2) * 1 + 1 * u.val = 0; rw [e30]; have := u.isLt; omega
  | ⟨1, _⟩ => show win2_3.index t (1 : Fin 2) * 1024 + 1 * r.val = rr.val; rw [e31, hrr]; omega

theorem acc_even (c : Dev nD) (n : ℕ) (hn : n < cfg2.N) (h0 : n % 2 = 0) :
    (outsAt2 V c n hn).2 = k2_pay2 (F := Ideal) (blkA V c ⟨n, hn⟩) (blkB V c ⟨n, hn⟩) (blkSA V c ⟨n, hn⟩) (blkSB V c ⟨n, hn⟩) (k2_pay1 (F := Ideal)) := by
  rw [show outsAt2 V c n hn = _ from outsAt2_A V c ⟨n, hn⟩ h0]
  exact sout2_A_0_eq (F := Ideal) (pt2 V c ⟨n, hn⟩) _ _

theorem out_odd (c : Dev nD) (t : Fin cfg2.N) (h0 : ¬t.val % 2 = 0) :
    (outsAt2 V c t.val t.isLt).1 = k2_pay3 (F := Ideal) (k2_pay2 (F := Ideal) (blkA V c t) (blkB V c t) (blkSA V c t) (blkSB V c t)
      (prev2 V c t)) := by
  rw [outsAt2_C V c t h0]
  exact out2_C_4_eq (F := Ideal) (pt2 V c t) (prev2 V c t) _ _

abbrev res2 (c : Dev nD) : FVec Ideal S4096x1 .f32 := fun j =>
  Cert.Spec.resK (fun i f => arrA V c (ix2 i f)) (fun r f => arrB V c (ix2 r f)) (fun i => arrSA V c (ix2 i (0 : Fin 1))) (fun r => arrSB V c (ix2 (0 : Fin 1) r)) (j 0)

theorem rrow_val (h : Fin 2) (r : Fin 1024) : (Cert.Spec.rrow h r).val = 1024 * h.val + r.val := rfl

theorem flushed_core (c : Dev nD) (t : Fin cfg2.N) (h1 : t.val % 2 = 1) (hlt : t.val - 1 < cfg2.N) (y : S1024x1.Idx) (row : Fin 4096)
    (hrow : row.val = 1024 * (t.val / 2) + (y 0).val) :
    k2_pay3 (F := Ideal) (k2_pay2 (F := Ideal) (blkA V c t) (blkB V c t) (blkSA V c t) (blkSB V c t)
      (k2_pay2 (F := Ideal) (blkA V c ⟨t.val - 1, hlt⟩) (blkB V c ⟨t.val - 1, hlt⟩) (blkSA V c ⟨t.val - 1, hlt⟩) (blkSB V c ⟨t.val - 1, hlt⟩) (k2_pay1 (F := Ideal)))) y
      = Cert.Spec.resK (fun i f => arrA V c (ix2 i f)) (fun r f => arrB V c (ix2 r f)) (fun i => arrSA V c (ix2 i (0 : Fin 1))) (fun r => arrSB V c (ix2 (0 : Fin 1) r)) row := by
  obtain ⟨p, u, rfl⟩ : ∃ (p : Fin 1024) (u : Fin 1), y = ix2 p u := ⟨y 0, y 1, eq_ix2 y⟩
  obtain rfl : u = 0 := Subsingleton.elim _ _
  have hrow1 : row.val = 1024 * (t.val / 2) + p.val := hrow
  have hrow0 : row.val = 1024 * ((⟨t.val - 1, hlt⟩ : Fin cfg2.N).val / 2) + p.val := by dsimp only; omega
  have hr0 : ∀ r : Fin 1024, (Cert.Spec.rrow 0 r).val = 1024 * ((⟨t.val - 1, hlt⟩ : Fin cfg2.N).val % 2) + r.val := fun r => by
    rw [rrow_val]; dsimp only; have : ((0 : Fin 2) : ℕ) = 0 := rfl; omega
  have hr1 : ∀ r : Fin 1024, (Cert.Spec.rrow 1 r).val = 1024 * (t.val % 2) + r.val := fun r => by
    rw [rrow_val]; have : ((1 : Fin 2) : ℕ) = 1 := rfl; omega
  refine (rowBlock_apply (blkA V c ⟨t.val - 1, hlt⟩) (blkB V c ⟨t.val - 1, hlt⟩) (blkSA V c ⟨t.val - 1, hlt⟩) (blkSB V c ⟨t.val - 1, hlt⟩)
    (blkA V c t) (blkB V c t) (blkSA V c t) (blkSB V c t) p).trans ?_
  unfold Cert.Spec.resK Cert.Spec.dist
  refine congrArg (· * Cert.Spec.invN) ?_
  refine congrArg₂ (· + ·) (congrArg (0 + ·) (Finset.sum_congr rfl fun r _ => ?_)) (Finset.sum_congr rfl fun r _ => ?_)
  · refine congrArg₂ (· - ·) (congrArg₂ (· + ·) (blkSA_apply V c ⟨t.val - 1, hlt⟩ p 0 row hrow0) (blkSB_apply V c ⟨t.val - 1, hlt⟩ 0 r (Cert.Spec.rrow 0 r) (hr0 r)))
      (congrArg (Cert.Spec.two * ·) (Finset.sum_congr rfl fun f _ => congrArg₂ (· * ·) (blkA_apply V c ⟨t.val - 1, hlt⟩ p f row hrow0) (blkB_apply V c ⟨t.val - 1, hlt⟩ r f (Cert.Spec.rrow 0 r) (hr0 r))))
  · refine congrArg₂ (· - ·) (congrArg₂ (· + ·) (blkSA_apply V c t p 0 row hrow1) (blkSB_apply V c t 0 r (Cert.Spec.rrow 1 r) (hr1 r)))
      (congrArg (Cert.Spec.two * ·) (Finset.sum_congr rfl fun f _ => congrArg₂ (· * ·) (blkA_apply V c t p f row hrow1) (blkB_apply V c t r f (Cert.Spec.rrow 1 r) (hr1 r))))

theorem flushed2_4_eq (c : Dev nD) (t : Fin cfg2.N) (hf : (cfg2.win 4).flush t = true) :
    (dat2 (F := Ideal) V c).flushed 4 t = ((cfg2.win 4).blk t).view.read (Elt Ideal) (res2 V c) := by
  have hN : cfg2.N = 8 := N_2
  have h1 : t.val % 2 = 1 := (flush2_4 t).mp hf
  have h0 : ¬t.val % 2 = 0 := by omega
  have hlt : t.val - 1 < cfg2.N := Nat.lt_of_le_of_lt (Nat.sub_le _ _) t.isLt
  obtain ⟨e00, e01, e10, e11, e20, e21, e30, e31, e40, e41⟩ := idx_facts2 t
  show (cfg2.win 4).cut (grid2.coords t) ((dat2 (F := Ideal) V c).after 4 t) = _
  rw [after2_4, out_odd V c t h0]
  unfold prev2
  rw [acc_even V c (t.val - 1) hlt (by omega)]
  funext y
  rw [View.read_apply]
  exact flushed_core V c t h1 hlt y (((cfg2.win 4).blk t).view.emb y 0) (by
    show win2_4.index t (0 : Fin 2) * 1024 + 1 * (y 0).val = 1024 * (t.val / 2) + (y 0).val
    rw [e40]; omega)

theorem mem_blk2_4 (t : Fin cfg2.N) (i : S4096x1.Idx) :
    i ∈ ((cfg2.win 4).blk t).view.set ↔ ∀ a : Fin 2, win2_4.index t a * S1024x1.size a ≤ (i a).val ∧ (i a).val < win2_4.index t a * S1024x1.size a + S1024x1.size a := by
  show i ∈ ((View.whole main_v4).slice (win2_4.rect t)).set ↔ _
  rw [View.set_slice_whole, Rect.mem_set_unit]
  exact Iff.rfl

theorem cover2_4 (i : S4096x1.Idx) : ∃ t : Fin cfg2.N, (cfg2.win 4).flush t = true ∧ i ∈ ((cfg2.win 4).blk t).view.set := by
  have hN : cfg2.N = 8 := N_2
  have hi0 : (i 0).val < 4096 := (i 0).isLt
  have hi1 : (i 1).val < 1 := (i 1).isLt
  refine ⟨⟨2 * ((i 0).val / 1024) + 1, by omega⟩, (flush2_4 _).mpr (by dsimp only; omega), ?_⟩
  rw [mem_blk2_4]
  obtain ⟨e00, e01, e10, e11, e20, e21, e30, e31, e40, e41⟩ := idx_facts2 ⟨2 * ((i 0).val / 1024) + 1, by omega⟩
  intro a
  match a with
  | ⟨0, _⟩ =>
    show win2_4.index _ (0 : Fin 2) * 1024 ≤ (i 0).val ∧ (i 0).val < win2_4.index _ (0 : Fin 2) * 1024 + 1024
    rw [e40]; dsimp only; omega
  | ⟨1, _⟩ =>
    show win2_4.index _ (1 : Fin 2) * 1 ≤ (i 1).val ∧ (i 1).val < win2_4.index _ (1 : Fin 2) * 1 + 1
    rw [e41]; omega

theorem arr2_4 (c : Dev nD) (j : S4096x1.Idx) :
    (dat2 (F := Ideal) V c).arrAt 4 cfg2.N j
      = Cert.Spec.resK (fun i f => V c main_v1_0 (ix2 i f)) (fun r f => V c main_v2_0 (ix2 r f))
          (fun i => V c main_v1_1 (ix2 i 0)) (fun r => V c main_v3 (ix2 0 r)) (j 0) :=
  congrFun ((dat2 (F := Ideal) V c).arrAt_eq_of_cover 4 (res2 V c) (flushed2_4_eq V c) cover2_4) j

end

end Cert.KernelIdeal.Fr

end
-- ==== Proof.KI.Value.lean ====
import proofs.«148324_j39651138077344_1_alg».proof.Proof.KI.ValueFold
import proofs.«148324_j39651138077344_1_alg».proof.Proof.KI.V0
import proofs.«148324_j39651138077344_1_alg».proof.Proof.KI.V1
import proofs.«148324_j39651138077344_1_alg».proof.Proof.KI.V2

set_option maxRecDepth 16384

noncomputable section

namespace Cert.KernelIdeal.Fr

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat)

variable (m : (ℓ : Loc nD τ sig) → Buf (Elt Ideal) ℓ) (ρ : Dev nD → PrngReg)

theorem kernel_value (c : Dev nD) (i : S4096.Idx) :
    (W6 m ρ c (Proc.devRef .tc main_v5) : S4096.Idx → EReal) i
      = Cert.Spec.resK (kfeat m (m ((c : Thread nD τ).loc main_arg0)) c) (kfeat m (m ((c : Thread nD τ).loc main_arg1)) c)
          (Cert.Spec.sq (kfeat m (m ((c : Thread nD τ).loc main_arg0)) c)) (Cert.Spec.sq (kfeat m (m ((c : Thread nD τ).loc main_arg1)) c)) (i 0) :=
  kernel_value_of m ρ (fun V c j => arr0_3 V c j) (fun V c j => arr0_4 V c j) (fun V c j => R1.arr1_3 V c j) (fun V c j => R1.arr1_4 V c j)
    (fun V c j => arr2_4 V c j) c i

end Cert.KernelIdeal.Fr

end
-- ==== Proof.RefValue.lean ====
import proofs.«148324_j39651138077344_1_alg».proof.Proof.Gen.ReferenceIdeal.Run
import proofs.«148324_j39651138077344_1_alg».proof.Proof.Gen.ReferenceIdeal.Read
import proofs.«148324_j39651138077344_1_alg».proof.Proof.Spec

noncomputable section

namespace Cert.RefValue

open Cert.ReferenceIdeal Cert.ReferenceIdeal.Gen Cert.ReferenceIdeal.Read
open Idealize.ShloMosaic Idealize.ShloMosaic.ValueIdx

variable (x0 : (⟨S4096x2048, .f32⟩ : BufTy).Contents (Elt Ideal)) (x1 : (⟨S2048x2048, .f32⟩ : BufTy).Contents (Elt Ideal))
  (x2 : (⟨S2048x1024, .f32⟩ : BufTy).Contents (Elt Ideal)) (x3 : (⟨S1024, .f32⟩ : BufTy).Contents (Elt Ideal))

theorem feat_input (r : Fin 4096) (f : Fin 1024) :
    val_main_v3 (F := Ideal) x0 x2 x3 (ix2 r f) = Cert.Spec.feat x0 x2 x3 r f := by
  have hl : ∀ k : Fin 2048, lidx_main_v0 (ix2 r f) k = ix2 r k := fun k =>
    funext fun a => Fin.ext (by match a with | ⟨0, _⟩ => rfl | ⟨1, _⟩ => rfl)
  have hr : ∀ k : Fin 2048, ridx_main_v0 (ix2 r f) k = ix2 k f := fun k =>
    funext fun a => Fin.ext (by match a with | ⟨0, _⟩ => rfl | ⟨1, _⟩ => rfl)
  have hb : idx_main_v1 (idx_main_v2 (ix2 r f)) = ix1 f :=
    funext fun a => Fin.ext (by match a with | ⟨0, _⟩ => rfl)
  rw [val_main_v3_apply, val_main_v0_apply, val_main_v2_apply, val_main_v1_apply, Ideal.addf_def, hb]
  unfold Cert.Spec.feat
  refine congrArg (· + _) (Finset.sum_congr rfl fun k _ => ?_)
  rw [hl, hr]

theorem feat_ref (r : Fin 2048) (f : Fin 1024) :
    val_main_v7 (F := Ideal) x1 x2 x3 (ix2 r f) = Cert.Spec.feat x1 x2 x3 r f := by
  have hl : ∀ k : Fin 2048, lidx_main_v4 (ix2 r f) k = ix2 r k := fun k =>
    funext fun a => Fin.ext (by match a with | ⟨0, _⟩ => rfl | ⟨1, _⟩ => rfl)
  have hr : ∀ k : Fin 2048, ridx_main_v4 (ix2 r f) k = ix2 k f := fun k =>
    funext fun a => Fin.ext (by match a with | ⟨0, _⟩ => rfl | ⟨1, _⟩ => rfl)
  have hb : idx_main_v5 (idx_main_v6 (ix2 r f)) = ix1 f :=
    funext fun a => Fin.ext (by match a with | ⟨0, _⟩ => rfl)
  rw [val_main_v7_apply, val_main_v4_apply, val_main_v6_apply, val_main_v5_apply, Ideal.addf_def, hb]
  unfold Cert.Spec.feat
  refine congrArg (· + _) (Finset.sum_congr rfl fun k _ => ?_)
  rw [hl, hr]

theorem sq_input (r : Fin 4096) :
    val_main_v9 (F := Ideal) x0 x2 x3 (ix1 r) = Cert.Spec.sq (Cert.Spec.feat x0 x2 x3) r := by
  have hk : ∀ k : Fin 1024, idx_main_v9 (ix1 r) k = ix2 r k := fun k =>
    funext fun a => Fin.ext (by match a with | ⟨0, _⟩ => rfl | ⟨1, _⟩ => rfl)
  rw [val_main_v9_apply, val_main_cst_apply, Ideal.ofBits_def, Ideal.ofBits_zero_f32, zero_add]
  unfold Cert.Spec.sq
  refine Finset.sum_congr rfl fun k _ => ?_
  rw [hk, val_main_v8_apply, Ideal.mulf_def, feat_input]

theorem sq_ref (r : Fin 2048) :
    val_main_v12 (F := Ideal) x1 x2 x3 (ix1 r) = Cert.Spec.sq (Cert.Spec.feat x1 x2 x3) r := by
  have hk : ∀ k : Fin 1024, idx_main_v12 (ix1 r) k = ix2 r k := fun k =>
    funext fun a => Fin.ext (by match a with | ⟨0, _⟩ => rfl | ⟨1, _⟩ => rfl)
  rw [val_main_v12_apply, val_main_cst_0_apply, Ideal.ofBits_def, Ideal.ofBits_zero_f32, zero_add]
  unfold Cert.Spec.sq
  refine Finset.sum_congr rfl fun k _ => ?_
  rw [hk, val_main_v11_apply, Ideal.mulf_def, feat_ref]

theorem cross (i : Fin 4096) (r : Fin 2048) :
    val_main_v13 (F := Ideal) x0 x1 x2 x3 (ix2 i r)
      = ∑ f : Fin 1024, Cert.Spec.feat x0 x2 x3 i f * Cert.Spec.feat x1 x2 x3 r f := by
  have hl : ∀ k : Fin 1024, lidx_main_v13 (ix2 i r) k = ix2 i k := fun k =>
    funext fun a => Fin.ext (by match a with | ⟨0, _⟩ => rfl | ⟨1, _⟩ => rfl)
  have hr : ∀ k : Fin 1024, ridx_main_v13 (ix2 i r) k = ix2 r k := fun k =>
    funext fun a => Fin.ext (by match a with | ⟨0, _⟩ => rfl | ⟨1, _⟩ => rfl)
  rw [val_main_v13_apply]
  refine Finset.sum_congr rfl fun k _ => ?_
  rw [hl, hr, feat_input, feat_ref]

theorem dist_entry (i : Fin 4096) (r : Fin 2048) :
    val_main_v20 (F := Ideal) x0 x1 x2 x3 (ix2 i r)
      = Cert.Spec.dist (Cert.Spec.feat x0 x2 x3) (Cert.Spec.feat x1 x2 x3)
          (Cert.Spec.sq (Cert.Spec.feat x0 x2 x3)) (Cert.Spec.sq (Cert.Spec.feat x1 x2 x3)) i r := by
  have ha : idx_main_v10 (idx_main_v15 (ix2 i r)) = ix1 i :=
    funext fun a => Fin.ext (by match a with | ⟨0, _⟩ => rfl)
  have hb : idx_main_v14 (idx_main_v16 (ix2 i r)) = ix1 r :=
    funext fun a => Fin.ext (by match a with | ⟨0, _⟩ => rfl)
  rw [val_main_v20_apply, val_main_v17_apply, val_main_v19_apply, val_main_v15_apply, val_main_v10_apply,
    val_main_v16_apply, val_main_v14_apply, val_main_v18_apply, val_main_cst_1_apply, ha, hb,
    Ideal.subf_def, Ideal.addf_def, Ideal.mulf_def, Ideal.ofBits_def, sq_input, sq_ref, cross]
  rfl

theorem ref_value_at (i : Fin 4096) :
    val_main_v23 (F := Ideal) x0 x1 x2 x3 (ix1 i)
      = Cert.Spec.res (Cert.Spec.feat x0 x2 x3) (Cert.Spec.feat x1 x2 x3) i := by
  have hk : ∀ k : Fin 2048, idx_main_v21 (ix1 i) k = ix2 i k := fun k =>
    funext fun a => Fin.ext (by match a with | ⟨0, _⟩ => rfl | ⟨1, _⟩ => rfl)
  rw [val_main_v23_apply, val_main_v21_apply, val_main_v22_apply, val_main_cst_3_apply, val_main_cst_2_apply,
    Ideal.hostDivf_def, Ideal.ofBits_def, Ideal.ofBits_def, Ideal.ofBits_zero_f32, zero_add]
  unfold Cert.Spec.res
  refine congrArg (Ideal.div · _) (Finset.sum_congr rfl fun k _ => ?_)
  rw [hk, dist_entry]

/-- The reference's stages, read one at a time at an index, compose to the specification's reference-shaped formula. -/
theorem ref_value (x0 : (⟨S4096x2048, .f32⟩ : BufTy).Contents (Elt Ideal)) (x1 : (⟨S2048x2048, .f32⟩ : BufTy).Contents (Elt Ideal))
    (x2 : (⟨S2048x1024, .f32⟩ : BufTy).Contents (Elt Ideal)) (x3 : (⟨S1024, .f32⟩ : BufTy).Contents (Elt Ideal)) (i : S4096.Idx) :
    val_main_v23 (F := Ideal) x0 x1 x2 x3 i
      = Cert.Spec.res (Cert.Spec.feat x0 x2 x3) (Cert.Spec.feat x1 x2 x3) (i 0) := by
  exact (congrArg (val_main_v23 (F := Ideal) x0 x1 x2 x3) (eq_ix1 i)).trans (ref_value_at x0 x1 x2 x3 (i 0))

end Cert.RefValue

end
-- ==== Proof.lean ====
import proofs.«148324_j39651138077344_1_alg».proof.Defs
import proofs.«148324_j39651138077344_1_alg».proof.Proof.Gen.Kernel
import proofs.«148324_j39651138077344_1_alg».proof.Proof.Gen.KernelIdeal
import proofs.«148324_j39651138077344_1_alg».proof.Proof.Gen.ReferenceIdeal
import proofs.«148324_j39651138077344_1_alg».proof.Proof.Gen.Pre_finite_inputs
import proofs.«148324_j39651138077344_1_alg».proof.Proof.Gen.ReferenceIdeal.Run
import proofs.«148324_j39651138077344_1_alg».proof.Proof.Gen.ReferenceIdeal.Read
import proofs.«148324_j39651138077344_1_alg».proof.Proof.K.Frame
import proofs.«148324_j39651138077344_1_alg».proof.Proof.KI.Frame
import proofs.«148324_j39651138077344_1_alg».proof.Proof.KI.Value
import proofs.«148324_j39651138077344_1_alg».proof.Proof.RefValue
import proofs.«148324_j39651138077344_1_alg».proof.Proof.Spec

noncomputable section

namespace Cert.Proof

open Idealize.ShloMosaic Idealize.ShloMosaic.TcCoe Idealize.SL.Sem

/-- For every input row, the mean over the reference rows of the squared distance between the two feature rows. -/
def G (x0 : Cert.Spec.Mat 4096 2048) (x1 : Cert.Spec.Mat 2048 2048) (x2 : Cert.Spec.Mat 2048 1024) (x3 : Cert.Spec.Row 1024) :
    (⟨1, ![4096]⟩ : Shape).Idx → EReal :=
  fun i => Cert.Spec.res (Cert.Spec.feat x0 x2 x3) (Cert.Spec.feat x1 x2 x3) (i 0)

theorem frame_k : Cert.frame_Kernel := fun m ρ _ => Cert.Kernel.Fr.frame m ρ
theorem frame_ki : Cert.frame_KernelIdeal := fun m ρ _ => Cert.KernelIdeal.Fr.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs end with the result at `G` of the inputs: the two arrangements of the sums agree by associativity and commutativity of addition, and dividing by 2048 is multiplying by its reciprocal. -/
theorem algebraic : Cert.algebraic_KernelIdeal_ReferenceIdeal := by
  intro m ρ m' ρ' _ hagree
  refine ⟨fun c => G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun _ h c => ⟨(h c).1.trans ?_, (h c).2⟩)
      (Cert.KernelIdeal.Fr.run_result (F := Ideal) m ρ)
    funext i
    exact (Cert.KernelIdeal.Fr.kernel_value m ρ c i).trans (Cert.Spec.kernel_eq_reference _ _ _ _ _)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v23_eq, (hagree c).1, (hagree c).2.1, (hagree c).2.2.1, (hagree c).2.2.2]
    funext i
    exact Cert.RefValue.ref_value _ _ _ _ i

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
